-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x256 : Shape := ⟨3, ![16, 1024, 256]⟩
abbrev S16x1024x1024 : Shape := ⟨3, ![16, 1024, 1024]⟩
abbrev S256x256 : Shape := ⟨2, ![256, 256]⟩
abbrev S256 : Shape := ⟨1, ![256]⟩
abbrev S1024 : Shape := ⟨1, ![1024]⟩
abbrev S_ : Shape := ⟨0, ![]⟩

class Facts : Prop where
  bcast_S_S16x1024x256 : S_.BroadcastsInDim S16x1024x256 (![] : Fin 0 → Fin S16x1024x256.rank)
  reducesTo_S16x1024x256_S_d0_1_2 : S16x1024x256.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_arg8 : FVec F S1024 .f32) (main_arg9 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S1024 .f32) (main_arg7 : FVec F S1024 .f32) (main_arg8 : FVec F S1024 .f32) (main_arg9 : FVec F S1024 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_v33

def fn {F : FTy → Type} [FloatOps F] (main_arg0 : FVec F S16x1024x256 .f32) (main_arg1 : FVec F S16x1024x1024 .f32) (main_arg2 : FVec F S256x256 .f32) (main_arg3 : FVec F S256 .f32) (main_arg4 : FVec F S256x256 .f32) (main_arg5 : FVec F S256 .f32) (main_arg6 : FVec F S1024 .f32) (main_arg7 : FVec F S1024 .f32) (main_arg8 : FVec F S1024 .f32) (main_arg9 : FVec F S1024 .f32) : IVec S_ 1 :=
  let main_v0 : FVec F S16x1024x256 .f32 := Host.absf main_arg0
  let main_cst : FVec F S_ .f32 := constant S_ .f32 0x7F800000#32
  let main_v1 : FVec F S16x1024x256 .f32 := broadcastInDim S16x1024x256 ![] bcast_S_S16x1024x256 main_cst
  let main_v2 : IVec S16x1024x256 1 := cmpf .olt main_v0 main_v1
  let main_c : IVec S_ 1 := constantI S_ 1 1#1
  let main_v3 : IVec S_ 1 := (fun x v => Host.reduce IntOp.andi x v reducesTo_S16x1024x256_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S16x1024x256 : Shape := ⟨3, ![16, 1024, 256]⟩
abbrev S16x1024x1024 : Shape := ⟨3, ![16, 1024, 1024]⟩
abbrev S256x256 : Shape := ⟨2, ![256, 256]⟩
abbrev S256 : Shape := ⟨1, ![256]⟩
abbrev S1024 : Shape := ⟨1, ![1024]⟩
abbrev S1x256 : Shape := ⟨2, ![1, 256]⟩
abbrev S16x1024x1 : Shape := ⟨3, ![16, 1024, 1]⟩
abbrev S1024x1 : Shape := ⟨2, ![1024, 1]⟩
abbrev S2x1024x256 : Shape := ⟨3, ![2, 1024, 256]⟩
abbrev S2x1024x1024 : Shape := ⟨3, ![2, 1024, 1024]⟩
abbrev S2x1024x1 : Shape := ⟨3, ![2, 1024, 1]⟩
abbrev S1x1024x256 : Shape := ⟨3, ![1, 1024, 256]⟩
abbrev S1024x256 : Shape := ⟨2, ![1024, 256]⟩
abbrev S1x1024x1024 : Shape := ⟨3, ![1, 1024, 1024]⟩
abbrev S1024x1024 : Shape := ⟨2, ![1024, 1024]⟩
abbrev S1x1024x1 : Shape := ⟨3, ![1, 1024, 1]⟩
abbrev S4x1024x256 : Shape := ⟨3, ![4, 1024, 256]⟩

abbrev nBuf : Space → Nat
  | .hbm => 23
  | .vmem => 40
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1x256, .f32⟩
  | .hbm, ⟨11, _⟩ => ⟨S16x1024x256, .bf16⟩
  | .hbm, ⟨12, _⟩ => ⟨S16x1024x1, .f32⟩
  | .hbm, ⟨13, _⟩ => ⟨S16x1024x1, .f32⟩
  | .hbm, ⟨14, _⟩ => ⟨S1x256, .f32⟩
  | .hbm, ⟨15, _⟩ => ⟨S1024x1, .f32⟩
  | .hbm, ⟨16, _⟩ => ⟨S1024x1, .f32⟩
  | .hbm, ⟨17, _⟩ => ⟨S16x1024x256, .bf16⟩
  | .hbm, ⟨18, _⟩ => ⟨S16x1024x1, .f32⟩
  | .hbm, ⟨19, _⟩ => ⟨S16x1024x1, .f32⟩
  | .hbm, ⟨20, _⟩ => ⟨S1024x1, .f32⟩
  | .hbm, ⟨21, _⟩ => ⟨S1024x1, .f32⟩
  | .hbm, ⟨22, _⟩ => ⟨S16x1024x256, .f32⟩
  | .local _ .vmem, ⟨0, _⟩ => ⟨S2x1024x256, .f32⟩
  | .local _ .vmem, ⟨1, _⟩ => ⟨S2x1024x256, .f32⟩
  | .local _ .vmem, ⟨2, _⟩ => ⟨S2x1024x1024, .f32⟩
  | .local _ .vmem, ⟨3, _⟩ => ⟨S2x1024x1024, .f32⟩
  | .local _ .vmem, ⟨4, _⟩ => ⟨S256x256, .f32⟩
  | .local _ .vmem, ⟨5, _⟩ => ⟨S1x256, .f32⟩
  | .local _ .vmem, ⟨6, _⟩ => ⟨S2x1024x256, .bf16⟩
  | .local _ .vmem, ⟨7, _⟩ => ⟨S2x1024x256, .bf16⟩
  | .local _ .vmem, ⟨8, _⟩ => ⟨S2x1024x1, .f32⟩
  | .local _ .vmem, ⟨9, _⟩ => ⟨S2x1024x1, .f32⟩
  | .local _ .vmem, ⟨10, _⟩ => ⟨S2x1024x1, .f32⟩
  | .local _ .vmem, ⟨11, _⟩ => ⟨S2x1024x1, .f32⟩
  | .local _ .vmem, ⟨12, _⟩ => ⟨S2x1024x256, .bf16⟩
  | .local _ .vmem, ⟨13, _⟩ => ⟨S2x1024x256, .bf16⟩
  | .local _ .vmem, ⟨14, _⟩ => ⟨S2x1024x1024, .f32⟩
  | .local _ .vmem, ⟨15, _⟩ => ⟨S2x1024x1024, .f32⟩
  | .local _ .vmem, ⟨16, _⟩ => ⟨S256x256, .f32⟩
  | .local _ .vmem, ⟨17, _⟩ => ⟨S1x256, .f32⟩
  | .local _ .vmem, ⟨18, _⟩ => ⟨S16x1024x1, .f32⟩
  | .local _ .vmem, ⟨19, _⟩ => ⟨S16x1024x1, .f32⟩
  | .local _ .vmem, ⟨20, _⟩ => ⟨S1024x1, .f32⟩
  | .local _ .vmem, ⟨21, _⟩ => ⟨S1024x1, .f32⟩
  | .local _ .vmem, ⟨22, _⟩ => ⟨S2x1024x256, .bf16⟩
  | .local _ .vmem, ⟨23, _⟩ => ⟨S2x1024x256, .bf16⟩
  | .local _ .vmem, ⟨24, _⟩ => ⟨S2x1024x1, .f32⟩
  | .local _ .vmem, ⟨25, _⟩ => ⟨S2x1024x1, .f32⟩
  | .local _ .vmem, ⟨26, _⟩ => ⟨S2x1024x1, .f32⟩
  | .local _ .vmem, ⟨27, _⟩ => ⟨S2x1024x1, .f32⟩
  | .local _ .vmem, ⟨28, _⟩ => ⟨S1024x1, .f32⟩
  | .local _ .vmem, ⟨29, _⟩ => ⟨S1024x1, .f32⟩
  | .local _ .vmem, ⟨30, _⟩ => ⟨S4x1024x256, .bf16⟩
  | .local _ .vmem, ⟨31, _⟩ => ⟨S4x1024x256, .bf16⟩
  | .local _ .vmem, ⟨32, _⟩ => ⟨S16x1024x1, .f32⟩
  | .local _ .vmem, ⟨33, _⟩ => ⟨S16x1024x1, .f32⟩
  | .local _ .vmem, ⟨34, _⟩ => ⟨S1024x1, .f32⟩
  | .local _ .vmem, ⟨35, _⟩ => ⟨S1024x1, .f32⟩
  | .local _ .vmem, ⟨36, _⟩ => ⟨S4x1024x256, .f32⟩
  | .local _ .vmem, ⟨37, _⟩ => ⟨S4x1024x256, .f32⟩
  | .local _ .vmem, ⟨38, _⟩ => ⟨S1024x1, .f32⟩
  | .local _ .vmem, ⟨39, _⟩ => ⟨S1024x1, .f32⟩
  | _, _ => ⟨S16x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_v1_0 : Ref sig .tc := ⟨.hbm, 11, rfl⟩
abbrev main_call0_v1_1 : Ref sig .tc := ⟨.hbm, 12, rfl⟩
abbrev main_call0_v1_2 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5_0 : Ref sig .tc := ⟨.hbm, 17, rfl⟩
abbrev main_call0_v5_1 : Ref sig .tc := ⟨.hbm, 18, rfl⟩
abbrev main_call0_v5_2 : Ref sig .tc := ⟨.hbm, 19, rfl⟩
abbrev main_call0_v6 : Ref sig .tc := ⟨.hbm, 20, rfl⟩
abbrev main_call0_v7 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc1_stg10_0 : Ref sig .tc := ⟨.vmem, 26, rfl⟩
abbrev cc1_stg10_1 : Ref sig .tc := ⟨.vmem, 27, rfl⟩
abbrev cc1_scratch0 : Ref sig .tc := ⟨.vmem, 28, rfl⟩
abbrev cc1_scratch1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_stg2_0 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg5_1 : Ref sig .tc := ⟨.vmem, 37, rfl⟩
abbrev cc2_scratch0 : Ref sig .tc := ⟨.vmem, 38, rfl⟩
abbrev cc2_scratch1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1024x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x1024x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S2x1024x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S2x1024x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2x1024x1 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![4], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S4x1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S16x1024x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S16x1024x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1024x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4x1024x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  shapeCasts_S256_S1x256 : S256.ShapeCasts S1x256
  shapeCasts_S1024_S1024x1 : S1024.ShapeCasts S1024x1
  inb_S2x1024x256_S1x1024x256_0_0_0 : ∀ a, (![0, 0, 0] : Fin 3 → Nat) a + S1x1024x256.size a ≤ S2x1024x256.size a
  h_S1x1024x256 : 0 < S1x1024x256.numel
  shapeCasts_S1x1024x256_S1024x256 : S1x1024x256.ShapeCasts S1024x256
  inb_S256x256_S256x256_0_0 : ∀ a, (![0, 0] : Fin 2 → Nat) a + S256x256.size a ≤ S256x256.size a
  h_S256x256 : 0 < S256x256.numel
  inb_S2x1024x1024_S1x1024x1024_0_0_0 : ∀ a, (![0, 0, 0] : Fin 3 → Nat) a + S1x1024x1024.size a ≤ S2x1024x1024.size a
  h_S1x1024x1024 : 0 < S1x1024x1024.numel
  shapeCasts_S1x1024x1024_S1024x1024 : S1x1024x1024.ShapeCasts S1024x1024
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  bitsLt_bf16_f32 : FTy.bits .bf16 < FTy.bits .f32
  shapeCasts_S1024x256_S1x1024x256 : S1024x256.ShapeCasts S1x1024x256
  packedbf16_S2x1024x256_S1x1024x256_0_0_0 : (Rect.unit (s := S2x1024x256) ![0, 0, 0] S1x1024x256.size inb_S2x1024x256_S1x1024x256_0_0_0).PackedRows (EltTy.packing .bf16)
  reduces_S1024x256_S1024 : S1024x256.Reduces [1] S1024
  inb_S2x1024x1_S1x1024x1_0_0_0 : ∀ a, (![0, 0, 0] : Fin 3 → Nat) a + S1x1024x1.size a ≤ S2x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S2x1024x256_S1x1024x256_1_0_0 : ∀ a, (![1, 0, 0] : Fin 3 → Nat) a + S1x1024x256.size a ≤ S2x1024x256.size a
  inb_S2x1024x1024_S1x1024x1024_1_0_0 : ∀ a, (![1, 0, 0] : Fin 3 → Nat) a + S1x1024x1024.size a ≤ S2x1024x1024.size a
  packedbf16_S2x1024x256_S1x1024x256_1_0_0 : (Rect.unit (s := S2x1024x256) ![1, 0, 0] S1x1024x256.size inb_S2x1024x256_S1x1024x256_1_0_0).PackedRows (EltTy.packing .bf16)
  inb_S2x1024x1_S1x1024x1_1_0_0 : ∀ a, (![1, 0, 0] : Fin 3 → Nat) a + S1x1024x1.size a ≤ S2x1024x1.size a
  inb_S16x1024x1_S16x1024x1_0_0_0 : ∀ a, (![0, 0, 0] : Fin 3 → Nat) a + S16x1024x1.size a ≤ S16x1024x1.size a
  h_S16x1024x1 : 0 < S16x1024x1.numel
  shapeCasts_S16x1024x1_S16x1024x1 : S16x1024x1.ShapeCasts S16x1024x1
  reduces_S16x1024x1_S1024x1 : S16x1024x1.Reduces [0] S1024x1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x256 : S1024x1.Broadcasts S1024x256
  inb_S4x1024x256_S4x1024x256_0_0_0 : ∀ a, (![0, 0, 0] : Fin 3 → Nat) a + S4x1024x256.size a ≤ S4x1024x256.size a
  h_S4x1024x256 : 0 < S4x1024x256.numel
  shapeCasts_S4x1024x256_S4x1024x256 : S4x1024x256.ShapeCasts S4x1024x256
  broadcasts_S1x1024x1_S4x1024x256 : S1x1024x1.Broadcasts S4x1024x256
  dot_S1024x256_S256x256_S1024x256_1_0_0_1_n_n_wf : DotDims.WF S1024x256 S256x256 S1024x256 [1] [0] [0] [1] [] []
  dot_S1024x1024_S1024x256_S1024x256_1_0_0_1_n_n_wf : DotDims.WF S1024x1024 S1024x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1024x256.size a ≤ S16x1024x256.size a
  hwx0_0 : ∀ i : grid0.Coords, EltTy.bits .f32 = 32 ∨ (Rect.block (s := S16x1024x256) S2x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x1024x1024.size a ≤ S16x1024x1024.size a
  hwx0_1 : ∀ i : grid0.Coords, EltTy.bits .f32 = 32 ∨ (Rect.block (s := S16x1024x1024) S2x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2x1024x256.size a ≤ S16x1024x256.size a
  hwx0_4 : ∀ i : grid0.Coords, EltTy.bits .bf16 = 32 ∨ (Rect.block (s := S16x1024x256) S2x1024x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x1024x1.size a ≤ S16x1024x1.size a
  hwx0_5 : ∀ i : grid0.Coords, EltTy.bits .f32 = 32 ∨ (Rect.block (s := S16x1024x1) S2x1024x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x1024x1.size a ≤ S16x1024x1.size a
  hwx0_6 : ∀ i : grid0.Coords, EltTy.bits .f32 = 32 ∨ (Rect.block (s := S16x1024x1) S2x1024x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x1024x256.size a ≤ S16x1024x256.size a
  hwx1_0 : ∀ i : grid1.Coords, EltTy.bits .bf16 = 32 ∨ (Rect.block (s := S16x1024x256) S2x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x1024x1024.size a ≤ S16x1024x1024.size a
  hwx1_1 : ∀ i : grid1.Coords, EltTy.bits .f32 = 32 ∨ (Rect.block (s := S16x1024x1024) S2x1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x1024x1.size a ≤ S16x1024x1.size a
  hwx1_4 : ∀ i : grid1.Coords, EltTy.bits .f32 = 32 ∨ (Rect.block (s := S16x1024x1) S16x1024x1.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x1024x1.size a ≤ S16x1024x1.size a
  hwx1_5 : ∀ i : grid1.Coords, EltTy.bits .f32 = 32 ∨ (Rect.block (s := S16x1024x1) S16x1024x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x1.size a ≤ S1024x1.size a
  hwx1_6 : ∀ i : grid1.Coords, EltTy.bits .f32 = 32 ∨ (Rect.block (s := S1024x1) S1024x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x1.size a ≤ S1024x1.size a
  hwx1_7 : ∀ i : grid1.Coords, EltTy.bits .f32 = 32 ∨ (Rect.block (s := S1024x1) S1024x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2x1024x256.size a ≤ S16x1024x256.size a
  hwx1_8 : ∀ i : grid1.Coords, EltTy.bits .bf16 = 32 ∨ (Rect.block (s := S16x1024x256) S2x1024x256.size (cc1_transform_8 i) (hinb1_8 i)).WholeWords (EltTy.packing .bf16)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2x1024x1.size a ≤ S16x1024x1.size a
  hwx1_9 : ∀ i : grid1.Coords, EltTy.bits .f32 = 32 ∨ (Rect.block (s := S16x1024x1) S2x1024x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2x1024x1.size a ≤ S16x1024x1.size a
  hwx1_10 : ∀ i : grid1.Coords, EltTy.bits .f32 = 32 ∨ (Rect.block (s := S16x1024x1) S2x1024x1.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4x1024x256.size a ≤ S16x1024x256.size a
  hwx2_0 : ∀ i : grid2.Coords, EltTy.bits .bf16 = 32 ∨ (Rect.block (s := S16x1024x256) S4x1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S16x1024x1.size a ≤ S16x1024x1.size a
  hwx2_1 : ∀ i : grid2.Coords, EltTy.bits .f32 = 32 ∨ (Rect.block (s := S16x1024x1) S16x1024x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S16x1024x1.size a ≤ S16x1024x1.size a
  hwx2_2 : ∀ i : grid2.Coords, EltTy.bits .f32 = 32 ∨ (Rect.block (s := S16x1024x1) S16x1024x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S1024x1.size a
  hwx2_3 : ∀ i : grid2.Coords, EltTy.bits .f32 = 32 ∨ (Rect.block (s := S1024x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1024x1.size a ≤ S1024x1.size a
  hwx2_4 : ∀ i : grid2.Coords, EltTy.bits .f32 = 32 ∨ (Rect.block (s := S1024x1) S1024x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4x1024x256.size a ≤ S16x1024x256.size a
  hwx2_5 : ∀ i : grid2.Coords, EltTy.bits .f32 = 32 ∨ (Rect.block (s := S16x1024x256) S4x1024x256.size (cc2_transform_5 i) (hinb2_5 i)).WholeWords (EltTy.packing .f32)

variable [Facts₀]

def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x1024_S1024x256_S1024x256_1_0_0_1_n_n : DotDims S1024x1024 S1024x256 S1024x256 where
  lhsContracting := [1]
  rhsContracting := [0]
  lhsNonContracting := [0]
  rhsNonContracting := [1]
  lhsBatch := []
  rhsBatch := []
  wf := dot_S1024x1024_S1024x256_S1024x256_1_0_0_1_n_n_wf

abbrev win0_0 : Pipeline.Window sig grid0 :=
  Pipeline.Window.ofSpec (Memref.whole main_arg0) S2x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v1_0) S2x1024x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v1_1) S2x1024x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v1_2) S2x1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_call0_v1_0) S2x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S2x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v2) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v1_1) S16x1024x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v1_2) S16x1024x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v3) S1024x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v4) S1024x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_call0_v5_0) S2x1024x256.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_call0_v5_1) S2x1024x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_call0_v5_2) S2x1024x1.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_call0_v5_0) S4x1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v5_1) S16x1024x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_call0_v5_2) S16x1024x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v6) S1024x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_call0_v7) S1024x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v0) S4x1024x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S16x1024x256 : Shape := ⟨3, ![16, 1024, 256]⟩
abbrev S16x1024x1024 : Shape := ⟨3, ![16, 1024, 1024]⟩
abbrev S256x256 : Shape := ⟨2, ![256, 256]⟩
abbrev S256 : Shape := ⟨1, ![256]⟩
abbrev S1024 : Shape := ⟨1, ![1024]⟩
abbrev S1x1x256 : Shape := ⟨3, ![1, 1, 256]⟩
abbrev S_ : Shape := ⟨0, ![]⟩
abbrev S1x1024x1 : Shape := ⟨3, ![1, 1024, 1]⟩

abbrev nBuf : Space → Nat
  | .hbm => 114
  | .vmem => 0
  | .smem => 0
  | _ => 0

abbrev bufTy : (tb : Table) → Fin (tcTables nBuf tb) → BufTy
  | .hbm, ⟨0, _⟩ => ⟨S16x1024x256, .f32⟩
  | .hbm, ⟨1, _⟩ => ⟨S16x1024x1024, .f32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S16x1024x256, .f32⟩
  | .hbm, ⟨11, _⟩ => ⟨S16x1024x256, .f32⟩
  | .hbm, ⟨12, _⟩ => ⟨S1x1x256, .f32⟩
  | .hbm, ⟨13, _⟩ => ⟨S16x1024x256, .f32⟩
  | .hbm, ⟨14, _⟩ => ⟨S16x1024x256, .f32⟩
  | .hbm, ⟨15, _⟩ => ⟨S_, .f32⟩
  | .hbm, ⟨16, _⟩ => ⟨S16x1024x256, .f32⟩
  | .hbm, ⟨17, _⟩ => ⟨S16x1024x256, .f32⟩
  | .hbm, ⟨18, _⟩ => ⟨S_, .f32⟩
  | .hbm, ⟨19, _⟩ => ⟨S1024, .f32⟩
  | .hbm, ⟨20, _⟩ => ⟨S1x1024x1, .f32⟩
  | .hbm, ⟨21, _⟩ => ⟨S_, .f32⟩
  | .hbm, ⟨22, _⟩ => ⟨S1x1024x1, .f32⟩
  | .hbm, ⟨23, _⟩ => ⟨S1x1024x1, .f32⟩
  | .hbm, ⟨24, _⟩ => ⟨S_, .i32⟩
  | .hbm, ⟨25, _⟩ => ⟨S_, .f32⟩
  | .hbm, ⟨26, _⟩ => ⟨S1024, .f32⟩
  | .hbm, ⟨27, _⟩ => ⟨S1x1024x1, .f32⟩
  | .hbm, ⟨28, _⟩ => ⟨S_, .f32⟩
  | .hbm, ⟨29, _⟩ => ⟨S1x1024x1, .f32⟩
  | .hbm, ⟨30, _⟩ => ⟨S1x1024x1, .f32⟩
  | .hbm, ⟨31, _⟩ => ⟨S16x1024x256, .f32⟩
  | .hbm, ⟨32, _⟩ => ⟨S16x1024x256, .f32⟩
  | .hbm, ⟨33, _⟩ => ⟨S16x1024x256, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1024, .f32⟩
  | .hbm, ⟨39, _⟩ => ⟨S1x1024x1, .f32⟩
  | .hbm, ⟨40, _⟩ => ⟨S1x1024x1, .f32⟩
  | .hbm, ⟨41, _⟩ => ⟨S1x1024x1, .f32⟩
  | .hbm, ⟨42, _⟩ => ⟨S_, .f32⟩
  | .hbm, ⟨43, _⟩ => ⟨S_, .i1⟩
  | .hbm, ⟨44, _⟩ => ⟨S_, .f32⟩
  | .hbm, ⟨45, _⟩ => ⟨S_, .f32⟩
  | .hbm, ⟨46, _⟩ => ⟨S1x1024x1, .f32⟩
  | .hbm, ⟨47, _⟩ => ⟨S1x1024x1, .f32⟩
  | .hbm, ⟨48, _⟩ => ⟨S16x1024x256, .f32⟩
  | .hbm, ⟨49, _⟩ => ⟨S16x1024x256, .f32⟩
  | .hbm, ⟨50, _⟩ => ⟨S_, .f32⟩
  | .hbm, ⟨51, _⟩ => ⟨S1x1024x1, .f32⟩
  | .hbm, ⟨52, _⟩ => ⟨S1x1024x1, .f32⟩
  | .hbm, ⟨53, _⟩ => ⟨S1x1024x1, .f32⟩
  | .hbm, ⟨54, _⟩ => ⟨S16x1024x256, .f32⟩
  | .hbm, ⟨55, _⟩ => ⟨S16x1024x256, .f32⟩
  | .hbm, ⟨56, _⟩ => ⟨S1x1024x1, .f32⟩
  | .hbm, ⟨57, _⟩ => ⟨S16x1024x256, .f32⟩
  | .hbm, ⟨58, _⟩ => ⟨S16x1024x256, .f32⟩
  | .hbm, ⟨59, _⟩ => ⟨S1x1024x1, .f32⟩
  | .hbm, ⟨60, _⟩ => ⟨S16x1024x256, .f32⟩
  | .hbm, ⟨61, _⟩ => ⟨S16x1024x256, .f32⟩
  | .hbm, ⟨62, _⟩ => ⟨S16x1024x256, .f32⟩
  | .hbm, ⟨63, _⟩ => ⟨S16x1024x256, .f32⟩
  | .hbm, ⟨64, _⟩ => ⟨S1x1x256, .f32⟩
  | .hbm, ⟨65, _⟩ => ⟨S16x1024x256, .f32⟩
  | .hbm, ⟨66, _⟩ => ⟨S16x1024x256, .f32⟩
  | .hbm, ⟨67, _⟩ => ⟨S_, .f32⟩
  | .hbm, ⟨68, _⟩ => ⟨S16x1024x256, .f32⟩
  | .hbm, ⟨69, _⟩ => ⟨S16x1024x256, .f32⟩
  | .hbm, ⟨70, _⟩ => ⟨S_, .f32⟩
  | .hbm, ⟨71, _⟩ => ⟨S1024, .f32⟩
  | .hbm, ⟨72, _⟩ => ⟨S1x1024x1, .f32⟩
  | .hbm, ⟨73, _⟩ => ⟨S_, .f32⟩
  | .hbm, ⟨74, _⟩ => ⟨S1x1024x1, .f32⟩
  | .hbm, ⟨75, _⟩ => ⟨S1x1024x1, .f32⟩
  | .hbm, ⟨76, _⟩ => ⟨S_, .i32⟩
  | .hbm, ⟨77, _⟩ => ⟨S_, .f32⟩
  | .hbm, ⟨78, _⟩ => ⟨S1024, .f32⟩
  | .hbm, ⟨79, _⟩ => ⟨S1x1024x1, .f32⟩
  | .hbm, ⟨80, _⟩ => ⟨S_, .f32⟩
  | .hbm, ⟨81, _⟩ => ⟨S1x1024x1, .f32⟩
  | .hbm, ⟨82, _⟩ => ⟨S1x1024x1, .f32⟩
  | .hbm, ⟨83, _⟩ => ⟨S16x1024x256, .f32⟩
  | .hbm, ⟨84, _⟩ => ⟨S16x1024x256, .f32⟩
  | .hbm, ⟨85, _⟩ => ⟨S16x1024x256, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S1024, .f32⟩
  | .hbm, ⟨91, _⟩ => ⟨S1x1024x1, .f32⟩
  | .hbm, ⟨92, _⟩ => ⟨S1x1024x1, .f32⟩
  | .hbm, ⟨93, _⟩ => ⟨S1x1024x1, .f32⟩
  | .hbm, ⟨94, _⟩ => ⟨S_, .f32⟩
  | .hbm, ⟨95, _⟩ => ⟨S_, .i1⟩
  | .hbm, ⟨96, _⟩ => ⟨S_, .f32⟩
  | .hbm, ⟨97, _⟩ => ⟨S_, .f32⟩
  | .hbm, ⟨98, _⟩ => ⟨S1x1024x1, .f32⟩
  | .hbm, ⟨99, _⟩ => ⟨S1x1024x1, .f32⟩
  | .hbm, ⟨100, _⟩ => ⟨S16x1024x256, .f32⟩
  | .hbm, ⟨101, _⟩ => ⟨S16x1024x256, .f32⟩
  | .hbm, ⟨102, _⟩ => ⟨S_, .f32⟩
  | .hbm, ⟨103, _⟩ => ⟨S1x1024x1, .f32⟩
  | .hbm, ⟨104, _⟩ => ⟨S1x1024x1, .f32⟩
  | .hbm, ⟨105, _⟩ => ⟨S1x1024x1, .f32⟩
  | .hbm, ⟨106, _⟩ => ⟨S16x1024x256, .f32⟩
  | .hbm, ⟨107, _⟩ => ⟨S16x1024x256, .f32⟩
  | .hbm, ⟨108, _⟩ => ⟨S1x1024x1, .f32⟩
  | .hbm, ⟨109, _⟩ => ⟨S16x1024x256, .f32⟩
  | .hbm, ⟨110, _⟩ => ⟨S16x1024x256, .f32⟩
  | .hbm, ⟨111, _⟩ => ⟨S1x1024x1, .f32⟩
  | .hbm, ⟨112, _⟩ => ⟨S16x1024x256, .f32⟩
  | .hbm, ⟨113, _⟩ => ⟨S16x1024x256, .f32⟩
  | _, _ => ⟨S16x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_c : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_cst_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_v5 : Ref sig .tc := ⟨.hbm, 32, rfl⟩
abbrev main_call1_v6 : Ref sig .tc := ⟨.hbm, 33, rfl⟩
abbrev main_call1_v7 : Ref sig .tc := ⟨.hbm, 34, rfl⟩
abbrev main_call1_cst_1 : Ref sig .tc := ⟨.hbm, 35, rfl⟩
abbrev main_call1_v8 : Ref sig .tc := ⟨.hbm, 36, rfl⟩
abbrev main_call1_cst_2 : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_v12 : Ref sig .tc := ⟨.hbm, 41, rfl⟩
abbrev main_call1_cst_3 : Ref sig .tc := ⟨.hbm, 42, rfl⟩
abbrev main_call1_v13 : Ref sig .tc := ⟨.hbm, 43, rfl⟩
abbrev main_call1_cst_4 : Ref sig .tc := ⟨.hbm, 44, rfl⟩
abbrev main_call1_call0_v0 : Ref sig .tc := ⟨.hbm, 45, rfl⟩
abbrev main_call1_call0_v1 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_cst_1 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_call2_cst : Ref sig .tc := ⟨.hbm, 67, rfl⟩
abbrev main_call2_v0 : Ref sig .tc := ⟨.hbm, 68, rfl⟩
abbrev main_v29 : Ref sig .tc := ⟨.hbm, 69, rfl⟩
abbrev main_cst_2 : Ref sig .tc := ⟨.hbm, 70, rfl⟩
abbrev main_v30 : Ref sig .tc := ⟨.hbm, 71, rfl⟩
abbrev main_v31 : Ref sig .tc := ⟨.hbm, 72, rfl⟩
abbrev main_cst_3 : Ref sig .tc := ⟨.hbm, 73, rfl⟩
abbrev main_v32 : Ref sig .tc := ⟨.hbm, 74, rfl⟩
abbrev main_v33 : Ref sig .tc := ⟨.hbm, 75, rfl⟩
abbrev main_c_4 : Ref sig .tc := ⟨.hbm, 76, rfl⟩
abbrev main_call3_cst : Ref sig .tc := ⟨.hbm, 77, rfl⟩
abbrev main_call3_v0 : Ref sig .tc := ⟨.hbm, 78, rfl⟩
abbrev main_call3_v1 : Ref sig .tc := ⟨.hbm, 79, rfl⟩
abbrev main_call3_cst_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_v6 : Ref sig .tc := ⟨.hbm, 85, rfl⟩
abbrev main_call3_v7 : Ref sig .tc := ⟨.hbm, 86, rfl⟩
abbrev main_call3_cst_1 : Ref sig .tc := ⟨.hbm, 87, rfl⟩
abbrev main_call3_v8 : Ref sig .tc := ⟨.hbm, 88, rfl⟩
abbrev main_call3_cst_2 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_v12 : Ref sig .tc := ⟨.hbm, 93, rfl⟩
abbrev main_call3_cst_3 : Ref sig .tc := ⟨.hbm, 94, rfl⟩
abbrev main_call3_v13 : Ref sig .tc := ⟨.hbm, 95, rfl⟩
abbrev main_call3_cst_4 : Ref sig .tc := ⟨.hbm, 96, rfl⟩
abbrev main_call3_call0_v0 : Ref sig .tc := ⟨.hbm, 97, rfl⟩
abbrev main_call3_call0_v1 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_cst_5 : Ref sig .tc := ⟨.hbm, 102, rfl⟩
abbrev main_v37 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_v41 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩

abbrev nD : Nat := 1
abbrev τ : Topo := Topo.v7x

variable {F : FTy → Type} [FloatOps F]

class Facts₀ : Prop where
  bcast_S256_S1x1x256_2 : S256.BroadcastsInDim S1x1x256 (![2] : Fin 1 → Fin S1x1x256.rank)
  bcast_S1x1x256_S16x1024x256_0_1_2 : S1x1x256.BroadcastsInDim S16x1024x256 (![0, 1, 2] : Fin 3 → Fin S16x1024x256.rank)
  bcast_S_S16x1024x256 : S_.BroadcastsInDim S16x1024x256 (![] : Fin 0 → Fin S16x1024x256.rank)
  reducesTo_S16x1024x256_S1024_d0_2 : S16x1024x256.ReducesTo [0, 2] S1024
  h_S_ : 0 < S_.numel
  bcast_S1024_S1x1024x1_1 : S1024.BroadcastsInDim S1x1024x1 (![1] : Fin 1 → Fin S1x1024x1.rank)
  bcast_S_S1x1024x1 : S_.BroadcastsInDim S1x1024x1 (![] : Fin 0 → Fin S1x1024x1.rank)
  bcast_S1x1024x1_S16x1024x256_0_1_2 : S1x1024x1.BroadcastsInDim S16x1024x256 (![0, 1, 2] : Fin 3 → Fin S16x1024x256.rank)
  dot_S16x1024x256_S256x256_S16x1024x256_2_0_01_1_n_n_wf : DotDims.WF S16x1024x256 S256x256 S16x1024x256 [2] [0] [0, 1] [1] [] []
  dot_S16x1024x1024_S16x1024x256_S16x1024x256_2_1_1_2_0_0_wf : DotDims.WF S16x1024x1024 S16x1024x256 S16x1024x256 [2] [1] [1] [2] [0] [0]

variable [Facts₀]

def dot_S16x1024x256_S256x256_S16x1024x256_2_0_01_1_n_n : DotDims S16x1024x256 S256x256 S16x1024x256 where
  lhsContracting := [2]
  rhsContracting := [0]
  lhsNonContracting := [0, 1]
  rhsNonContracting := [1]
  lhsBatch := []
  rhsBatch := []
  wf := dot_S16x1024x256_S256x256_S16x1024x256_2_0_01_1_n_n_wf
def dot_S16x1024x1024_S16x1024x256_S16x1024x256_2_1_1_2_0_0 : DotDims S16x1024x1024 S16x1024x256 S16x1024x256 where
  lhsContracting := [2]
  rhsContracting := [1]
  lhsNonContracting := [1]
  rhsNonContracting := [2]
  lhsBatch := [0]
  rhsBatch := [0]
  wf := dot_S16x1024x1024_S16x1024x256_S16x1024x256_2_1_1_2_0_0_wf

class Facts : Prop extends Facts₀ where

variable [Facts]
-- ==== Proof.Reads.lean ====
import proofs.«127664_g88656714924069_cont_sun_m_1396_9_alg».proof.Proof.Gen.KernelIdeal
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

section Columns
variable {α : Type}

/-- Row-major position i·1 + 0 of the column is position i of the vector. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column spread along the rows reads, at (p, c), its entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Columns

/-- A sum over a one-axis contraction index is the sum over that axis's coordinate. -/
theorem sum_contr1 {sl sr so : Shape} (D : DotDims sl sr so) (n : ℕ) (hr : D.contr.rank = 1) (hs : D.contr.size ⟨0, by omega⟩ = n)
    (l : sl.Idx → EReal) (r : sr.Idx → EReal) (j : so.Idx) (L : Fin n → sl.Idx) (R : Fin n → sr.Idx)
    (hl : ∀ k, D.lhsIdx j ((contrEquiv1 D n hr hs).symm k) = L k) (hR : ∀ k, D.rhsIdx j ((contrEquiv1 D n hr hs).symm k) = R k) :
    ∑ q : D.contr.Idx, l (D.lhsIdx j q) * r (D.rhsIdx j q) = ∑ k : Fin n, l (L k) * r (R k) := by
  rw [← Equiv.sum_comp (contrEquiv1 D n hr hs).symm]
  exact Finset.sum_congr rfl fun k _ => by rw [hl, hR]

/-- (l · r)[n, d] = Σ_k l[n, k] · r[k, d]: the left operand keeps the row, the right operand the column. -/
theorem mmW_apply (l : FVec Ideal S1024x256 .f32) (r : FVec Ideal S256x256 .f32) (n : Fin 1024) (d : Fin 256) :
    matmul (F := Ideal) dot_S1024x256_S256x256_S1024x256_1_0_0_1_n_n none l r (constant (F := Ideal) S1024x256 .f32 0x00000000#32) (ix2 n d)
      = ∑ k : Fin 256, l (ix2 n k) * r (ix2 k d) := by
  simp only [matmul]
  rw [Ideal.matmul_constant_zero_apply]
  refine sum_contr1 dot_S1024x256_S256x256_S1024x256_1_0_0_1_n_n 256 rfl rfl l r _ (ix2 n) (ix2 · d) (fun k => funext fun a => Fin.ext ?_) (fun k => funext fun a => Fin.ext ?_)
  · match a with
    | ⟨0, _⟩ => rfl
    | ⟨1, _⟩ => exact (dot_S1024x256_S256x256_S1024x256_1_0_0_1_n_n.lhsIdx_val_of_single rfl _ _).trans (contrEquiv1_symm_val dot_S1024x256_S256x256_S1024x256_1_0_0_1_n_n 256 rfl rfl k)
  · match a with
    | ⟨0, _⟩ => exact (dot_S1024x256_S256x256_S1024x256_1_0_0_1_n_n.rhsIdx_val_of_single rfl _ _).trans (contrEquiv1_symm_val dot_S1024x256_S256x256_S1024x256_1_0_0_1_n_n 256 rfl rfl k)
    | ⟨1, _⟩ => rfl

theorem mmA_apply (l : FVec Ideal S1024x1024 .f32) (r : FVec Ideal S1024x256 .f32) (n : Fin 1024) (d : Fin 256) :
    matmul (F := Ideal) dot_S1024x1024_S1024x256_S1024x256_1_0_0_1_n_n none l r (constant (F := Ideal) S1024x256 .f32 0x00000000#32) (ix2 n d)
      = ∑ m : Fin 1024, l (ix2 n m) * r (ix2 m d) := by
  simp only [matmul]
  rw [Ideal.matmul_constant_zero_apply]
  refine sum_contr1 dot_S1024x1024_S1024x256_S1024x256_1_0_0_1_n_n 1024 rfl rfl l r _ (ix2 n) (ix2 · d) (fun k => funext fun a => Fin.ext ?_) (fun k => funext fun a => Fin.ext ?_)
  · match a with
    | ⟨0, _⟩ => rfl
    | ⟨1, _⟩ => exact (dot_S1024x1024_S1024x256_S1024x256_1_0_0_1_n_n.lhsIdx_val_of_single rfl _ _).trans (contrEquiv1_symm_val dot_S1024x1024_S1024x256_S1024x256_1_0_0_1_n_n 1024 rfl rfl k)
  · match a with
    | ⟨0, _⟩ => exact (dot_S1024x1024_S1024x256_S1024x256_1_0_0_1_n_n.rhsIdx_val_of_single rfl _ _).trans (contrEquiv1_symm_val dot_S1024x1024_S1024x256_S1024x256_1_0_0_1_n_n 1024 rfl rfl k)
    | ⟨1, _⟩ => rfl

/-- A sum along the second axis at row n is Σ_d v[n, d]. -/
theorem laneSum_apply (v : FVec Ideal S1024x256 .f32) (n : Fin 1024) :
    multiReduction (F := Ideal) .add [1] S1024 v 0x00000000#32 reduces_S1024x256_S1024 (.inl rfl) rfl (ix1 n)
      = ∑ d : Fin 256, v (ix2 n d) := by
  refine (Ideal.multiReduction_add_single v _ reduces_S1024x256_S1024 (.inl rfl) rfl (ix1 n)).trans ?_
  refine Finset.sum_congr rfl fun d _ => congrArg v (funext fun a => Fin.ext ?_)
  match a with
  | ⟨0, _⟩ => rfl
  | ⟨1, _⟩ => rfl

/-- A sum along the first axis at (n, u) is Σ_b v[b, n, u]. -/
theorem batchSum_apply (v : FVec Ideal S16x1024x1 .f32) (n : Fin 1024) (u : Fin 1) :
    multiReduction (F := Ideal) .add [0] S1024x1 v 0x00000000#32 reduces_S16x1024x1_S1024x1 (.inl rfl) rfl (ix2 n u)
      = ∑ b : Fin 16, v (ix3 b n u) := by
  refine (Ideal.multiReduction_add_single v _ reduces_S16x1024x1_S1024x1 (.inl rfl) rfl (ix2 n u)).trans ?_
  refine Finset.sum_congr rfl fun b _ => congrArg v (funext fun a => Fin.ext ?_)
  match a with
  | ⟨0, _⟩ => rfl
  | ⟨1, _⟩ => rfl
  | ⟨2, _⟩ => rfl

theorem rsqrt_apply {s : Shape} {φ : FTy} (a : FVec Ideal s φ) (i : s.Idx) : rsqrt a i = Ideal.rsqrt (a i) := rfl

theorem scalar_ofBits (φ : FTy) (w : BitVec φ.bits) : Scalar.ofBits (F := Ideal) φ w = Ideal.ofBits φ w := rfl

theorem slab_inb {m k : ℕ} (p : Fin 2) :
    ∀ a, (![p.val, 0, 0] : Fin 3 → ℕ) a + (⟨3, ![1, m, k]⟩ : Shape).size a ≤ (⟨3, ![2, m, k]⟩ : Shape).size a
  | ⟨0, _⟩ => by show p.val + 1 ≤ 2; omega
  | ⟨1, _⟩ => Nat.le_of_eq (Nat.zero_add m)
  | ⟨2, _⟩ => Nat.le_of_eq (Nat.zero_add k)

/-- The entries of batch p among those of two batches. -/
abbrev slab {m k : ℕ} (p : Fin 2) : Rect ⟨3, ![2, m, k]⟩ := Rect.unit ![p.val, 0, 0] (⟨3, ![1, m, k]⟩ : Shape).size (slab_inb p)

theorem slab_idx {m k : ℕ} (p : Fin 2) (n : Fin m) (d : Fin k) : (slab p).idx (ix3 (0 : Fin 1) n d) = ix3 p n d :=
  funext fun a => Fin.ext (match a with
    | ⟨0, _⟩ => rfl
    | ⟨1, _⟩ => by show 0 + 1 * n.val = n.val; omega
    | ⟨2, _⟩ => by show 0 + 1 * d.val = d.val; omega)

theorem slab1_not_mem {m k : ℕ} (n : Fin m) (d : Fin k) : (ix3 (0 : Fin 2) n d : (⟨3, ![2, m, k]⟩ : Shape).Idx) ∉ (slab (m := m) (k := k) 1).set :=
  fun h => absurd (show (1 : ℕ) ≤ 0 from (Rect.mem_set_unit.1 h 0).1) (by decide)

/-- Of two writes, one per batch, each batch reads its own. -/
theorem canon_slab {e : EltTy} {m k : ℕ} (w1 w0 : Vec Ideal ⟨3, ![1, m, k]⟩ e) (n : Fin m) (d : Fin k) :
    View.canon [(⟨slab 1, w1⟩ : View.Piece (Elt Ideal) ⟨3, ![2, m, k]⟩ e), ⟨slab 0, w0⟩] (ix3 0 n d) = w0 (ix3 0 n d)
      ∧ View.canon [(⟨slab 1, w1⟩ : View.Piece (Elt Ideal) ⟨3, ![2, m, k]⟩ e), ⟨slab 0, w0⟩] (ix3 1 n d) = w1 (ix3 0 n d) := by
  constructor
  · refine (View.canon_cons_of_not_mem (⟨slab 1, w1⟩ : View.Piece (Elt Ideal) ⟨3, ![2, m, k]⟩ e) [⟨slab 0, w0⟩] (slab1_not_mem n d)).trans ?_
    rw [← slab_idx 0 n d]
    exact View.canon_cons_emb (slab 0) w0 [] _
  · rw [← slab_idx 1 n d]
    exact View.canon_cons_emb (slab 1) w1 _ _

end Cert.KernelIdeal.Hand

end
-- ==== Proof.R0.lean ====
import proofs.«127664_g88656714924069_cont_sun_m_1396_9_alg».proof.Proof.Gen.KernelIdeal.Launch
import proofs.«127664_g88656714924069_cont_sun_m_1396_9_alg».proof.Proof.Gen.KernelIdeal.Skeleton
import proofs.«127664_g88656714924069_cont_sun_m_1396_9_alg».proof.Proof.Gen.KernelIdeal.Points
import proofs.«127664_g88656714924069_cont_sun_m_1396_9_alg».proof.Proof.Reads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rW : Rect S256x256 := Rect.unit (s := S256x256) ![0, 0] S256x256.size inb_S256x256_S256x256_0_0
abbrev rB : Rect S1x256 := Rect.unit (s := S1x256) ![0, 0] S1x256.size inb_S1x256_S1x256_0_0

/-- Batch p's store of the payload f over the loaded operands. -/
def pc0 {M : ℕ} {e : EltTy} (f : Vec F S1x1024x256 .f32 → Vec F S256x256 .f32 → Vec F S1x1024x1024 .f32 → Vec F S1x256 .f32 → Vec F ⟨3, ![1, 1024, M]⟩ e)
    (x0 : Vec F S2x1024x256 .f32) (x1 : Vec F S2x1024x1024 .f32) (x2 : Vec F S256x256 .f32) (x3 : Vec F S1x256 .f32) (p : Fin 2) :
    View.Piece (Elt F) ⟨3, ![2, 1024, M]⟩ e :=
  ⟨slab p, f (View.ld x0 (slab p)) (View.ld x2 rW) (View.ld x1 (slab p)) (View.ld x3 rB)⟩

/-- What the body leaves in each block: the inputs in place, each output at its two batch stores, batch 1's last. -/
def aft0 (x0 : Vec F S2x1024x256 .f32) (x1 : Vec F S2x1024x1024 .f32) (x2 : Vec F S256x256 .f32) (x3 : Vec F S1x256 .f32) :
    (w : Fin cfg0.W) → (cfg0.win w).block.Idx → Elt F (cfg0.win w).elt
  | ⟨0, _⟩ => x0
  | ⟨1, _⟩ => x1
  | ⟨2, _⟩ => x2
  | ⟨3, _⟩ => x3
  | ⟨4, _⟩ => View.canon [pc0 k0_pay2 x0 x1 x2 x3 1, pc0 k0_pay2 x0 x1 x2 x3 0]
  | ⟨5, _⟩ => View.canon [pc0 k0_pay3 x0 x1 x2 x3 1, pc0 k0_pay3 x0 x1 x2 x3 0]
  | ⟨6, _⟩ => View.canon [pc0 k0_pay4 x0 x1 x2 x3 1, pc0 k0_pay4 x0 x1 x2 x3 0]

def dat0 (c : Dev nD) : Dat τ (Elt F) Unit ℕ (UR sig nD τ) ℕ cfg0 c where
  A w := V c (Pipeline.arrRef spec0 w)
  after w t := aft0 (iblk0 V c 0 t) (iblk0 V c 1 t) (iblk0 V c 2 t) (iblk0 V c 3 t) w
  Φ _ := Pipeline.ΦA spec0 c
  q _ := fullShare
  owed _ := 0

theorem A_eq0 (c : Dev nD) (w : Fin cfg0.W) : (dat0 V c).A w = V c (Pipeline.arrRef spec0 w) := rfl

theorem before0 (c : Dev nD) : ∀ w : Fin cfg0.W, w.val < 4 → ∀ (t : Fin cfg0.N) d,
    (dat0 V c).before w t d = aft0 (iblk0 V c 0 t) (iblk0 V c 1 t) (iblk0 V c 2 t) (iblk0 V c 3 t) w
  | ⟨0, _⟩, _, t, d | ⟨1, _⟩, _, t, d | ⟨2, _⟩, _, t, d | ⟨3, _⟩, _, t, d =>
    (dat0 V c).before_in_eq_fetched _ rfl (fun _ => rfl) (fun _ _ _ => rfl) (fun _ => rfl) t d
  | ⟨n + 4, _⟩, h, _, _ => (Nat.not_lt.mpr (Nat.le_add_left 4 n) h).elim

/-- At every point the body, given the input blocks, returns them with each output at its two batch stores. -/
theorem body_obligation0 (c : Dev nD) : BodyObligation (dat0 (F := F) V c) (defs₀ (F := F)) Variants.none () Set.univ := fun t => by
  show iprop((dat0 V c).Φ t.castSucc ∗ (dat0 V c).owesAt () t.castSucc
      ∗ bigSep Finset.univ fun w : Fin cfg0.W => iprop(∃ d, owns (c : Thread nD τ) ((cfg0.win w).stage (cfg0.slots t w)) fullShare ((dat0 V c).before w t d)))
    ⊢ wp frame (wpE (defs₀ (F := F)) Variants.none c none) Set.univ (bodyAt0 t) fun _ =>
      iprop((dat0 V c).Φ t.castSucc ∗ (dat0 V c).owesAt () t.castSucc
        ∗ bigSep Finset.univ fun w : Fin cfg0.W => owns (c : Thread nD τ) ((cfg0.win w).stage (cfg0.slots t w)) fullShare
            (aft0 (iblk0 V c 0 t) (iblk0 V c 1 t) (iblk0 V c 2 t) (iblk0 V c 3 t) w))
  rw [bigSep_W0, bigSep_W0]
  simp only [before0 V c 0 (by decide), before0 V c 1 (by decide), before0 V c 2 (by decide), before0 V c 3 (by decide)]
  generalize iblk0 V c 0 t = x0, iblk0 V c 1 t = x1, iblk0 V c 2 t = x2, iblk0 V c 3 t = x3
  dsimp only [aft0]
  unfold bodyAt0
  simp only [cc0__k1_eq_skeleton]; unfold cc0__k1_skel
  simp only [k0_part1_eq_skeleton]; unfold k0_part1_skel
  unfold owns
  iintro ⟨HΦ, Ho, ⟨%d0, %f0, %hf0, H0⟩, ⟨%d1, %f1, %hf1, H1⟩, ⟨%d2, %f2, %hf2, H2⟩, ⟨%d3, %f3, %hf3, H3⟩, ⟨%d4, %f4, -, H4⟩, ⟨%d5, %f5, -, H5⟩, ⟨%d6, %f6, -, H6⟩⟩
  subst hf0 hf1 hf2 hf3
  sl_exec
  sl_step
  iframe HΦ Ho
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]
  · iexists _; isplitr; swap; · iexact H4
    ipureintro; exact View.read_writes_eq_canon _ _ _ (View.cover_of_tiled _ S1x1024x256.size rfl)
  isplitl [H5]
  · iexists _; isplitr; swap; · iexact H5
    ipureintro; exact View.read_writes_eq_canon _ _ _ (View.cover_of_tiled _ S1x1024x1.size rfl)
  iexists _; isplitr; swap; · iexact H6
  ipureintro; exact View.read_writes_eq_canon _ _ _ (View.cover_of_tiled _ S1x1024x1.size rfl)

end Region0

end Cert.KernelIdeal.Hand

end
-- ==== Proof.R1.lean ====
import proofs.«127664_g88656714924069_cont_sun_m_1396_9_alg».proof.Proof.Gen.KernelIdeal.Launch
import proofs.«127664_g88656714924069_cont_sun_m_1396_9_alg».proof.Proof.Gen.KernelIdeal.Skeleton
import proofs.«127664_g88656714924069_cont_sun_m_1396_9_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region1
variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1X0 : Rect S2x1024x256 := Rect.unit (s := S2x1024x256) ![0, 0, 0] S1x1024x256.size inb_S2x1024x256_S1x1024x256_0_0_0
abbrev r1X1 : Rect S2x1024x256 := Rect.unit (s := S2x1024x256) ![1, 0, 0] S1x1024x256.size inb_S2x1024x256_S1x1024x256_1_0_0
abbrev r1A0 : Rect S2x1024x1024 := Rect.unit (s := S2x1024x1024) ![0, 0, 0] S1x1024x1024.size inb_S2x1024x1024_S1x1024x1024_0_0_0
abbrev r1A1 : Rect S2x1024x1024 := Rect.unit (s := S2x1024x1024) ![1, 0, 0] S1x1024x1024.size inb_S2x1024x1024_S1x1024x1024_1_0_0
abbrev r1W : Rect S256x256 := Rect.unit (s := S256x256) ![0, 0] S256x256.size inb_S256x256_S256x256_0_0
abbrev r1B : Rect S1x256 := Rect.unit (s := S1x256) ![0, 0] S1x256.size inb_S1x256_S1x256_0_0
abbrev r1S0 : Rect S2x1024x1 := Rect.unit (s := S2x1024x1) ![0, 0, 0] S1x1024x1.size inb_S2x1024x1_S1x1024x1_0_0_0
abbrev r1S1 : Rect S2x1024x1 := Rect.unit (s := S2x1024x1) ![1, 0, 0] S1x1024x1.size inb_S2x1024x1_S1x1024x1_1_0_0
abbrev r1Q : Rect S16x1024x1 := Rect.unit (s := S16x1024x1) ![0, 0, 0] S16x1024x1.size inb_S16x1024x1_S16x1024x1_0_0_0
abbrev r1N : Rect S1024x1 := Rect.unit (s := S1024x1) ![0, 0] S1024x1.size inb_S1024x1_S1024x1_0_0

def aV1 (x4 x5 : Vec F S16x1024x1 .f32) (x6 : Vec F S1024x1 .f32) : Vec F S1024x1 .f32 :=
  k1_pay5 (View.ld x4 r1Q) (View.ld x5 r1Q) (View.ld x6 r1N)
def cV1 (x4 x5 : Vec F S16x1024x1 .f32) (x6 x7 : Vec F S1024x1 .f32) : Vec F S1024x1 .f32 :=
  k1_pay6 (View.ld x4 r1Q) (View.ld x5 r1Q) (View.ld x6 r1N) (View.ld x7 r1N)

def out1_8 (x0 : Vec F S2x1024x256 .bf16) (x1 : Vec F S2x1024x1024 .f32) (x2 : Vec F S256x256 .f32) (x3 : Vec F S1x256 .f32) (a c : Vec F S1024x1 .f32) : Vec F S2x1024x256 .bf16 :=
  View.canon [⟨r1X1, k1_pay13 (View.ld x0 r1X1) (View.ld a r1N) (View.ld c r1N) (View.ld x2 r1W) (View.ld x1 r1A1) (View.ld x3 r1B)⟩,
    ⟨r1X0, k1_pay8 (View.ld x0 r1X0) (View.ld a r1N) (View.ld c r1N) (View.ld x2 r1W) (View.ld x1 r1A0) (View.ld x3 r1B)⟩]
def out1_9 (x0 : Vec F S2x1024x256 .bf16) (x1 : Vec F S2x1024x1024 .f32) (x2 : Vec F S256x256 .f32) (x3 : Vec F S1x256 .f32) (a c : Vec F S1024x1 .f32) : Vec F S2x1024x1 .f32 :=
  View.canon [⟨r1S1, k1_pay1 (k1_pay14 (View.ld x0 r1X1) (View.ld a r1N) (View.ld c r1N) (View.ld x2 r1W) (View.ld x1 r1A1) (View.ld x3 r1B))⟩,
    ⟨r1S0, k1_pay10 (k1_pay9 (View.ld x0 r1X0) (View.ld a r1N) (View.ld c r1N) (View.ld x2 r1W) (View.ld x1 r1A0) (View.ld x3 r1B))⟩]
def out1_10 (x0 : Vec F S2x1024x256 .bf16) (x1 : Vec F S2x1024x1024 .f32) (x2 : Vec F S256x256 .f32) (x3 : Vec F S1x256 .f32) (a c : Vec F S1024x1 .f32) : Vec F S2x1024x1 .f32 :=
  View.canon [⟨r1S1, k1_pay2 (k1_pay12 (View.ld x0 r1X1) (View.ld a r1N) (View.ld c r1N) (View.ld x2 r1W) (View.ld x1 r1A1) (View.ld x3 r1B))⟩,
    ⟨r1S0, k1_pay11 (k1_pay7 (View.ld x0 r1X0) (View.ld a r1N) (View.ld c r1N) (View.ld x2 r1W) (View.ld x1 r1A0) (View.ld x3 r1B))⟩]

def scA1 (c : Dev nD) : Vec F S1024x1 .f32 := aV1 (iblk1 V c 4 t1_0) (iblk1 V c 5 t1_0) (iblk1 V c 6 t1_0)
def scC1 (c : Dev nD) : Vec F S1024x1 .f32 := cV1 (iblk1 V c 4 t1_0) (iblk1 V c 5 t1_0) (iblk1 V c 6 t1_0) (iblk1 V c 7 t1_0)

/-- From the first point on the scratch holds the multiplier and the offset of the first layer's statistics. -/
def Phi1 (c : Dev nD) : ℕ → sProp 𝕄
  | 0 => Pipeline.ΦA spec1 c
  | _ + 1 => iprop(owns (c : Thread nD τ) (Memref.whole cc1_scratch0) fullShare (scA1 V c)
      ∗ owns (c : Thread nD τ) (Memref.whole cc1_scratch1) fullShare (scC1 V c)
      ∗ Pipeline.scopedRestBut (Ix := Unit) (Name := ℕ) (U := UR sig nD τ) (Lvl := ℕ) (Val := Elt F) spec1 c [cc1_scratch0, cc1_scratch1]
      ∗ (∃ r, prngReg c r))

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => out1_8 (iblk1 V c 0 t) (iblk1 V c 1 t) (iblk1 V c 2 t) (iblk1 V c 3 t) (scA1 V c) (scC1 V c)
    | ⟨9, _⟩ => out1_9 (iblk1 V c 0 t) (iblk1 V c 1 t) (iblk1 V c 2 t) (iblk1 V c 3 t) (scA1 V c) (scC1 V c)
    | ⟨10, _⟩ => out1_10 (iblk1 V c 0 t) (iblk1 V c 1 t) (iblk1 V c 2 t) (iblk1 V c 3 t) (scA1 V c) (scC1 V c)
  Φ t := Phi1 V c t.val
  q _ := fullShare
  owed _ := 0

theorem A_eq1 (c : Dev nD) (w : Fin cfg1.W) : (dat1 V c).A w = V c (Pipeline.arrRef spec1 w) := by
  dsimp only [dat1]

/-- The body leaves every input block as it finds it, so at every point each input is its block of the array. -/
theorem before1 (c : Dev nD) (t : Fin cfg1.N) :
    (∀ d, (dat1 V c).before 0 t d = iblk1 V c 0 t) ∧ (∀ d, (dat1 V c).before 1 t d = iblk1 V c 1 t)
      ∧ (∀ d, (dat1 V c).before 2 t d = iblk1 V c 2 t) ∧ (∀ d, (dat1 V c).before 3 t d = iblk1 V c 3 t)
      ∧ (∀ d, (dat1 V c).before 4 t d = iblk1 V c 4 t) ∧ (∀ d, (dat1 V c).before 5 t d = iblk1 V c 5 t)
      ∧ (∀ d, (dat1 V c).before 6 t d = iblk1 V c 6 t) ∧ (∀ d, (dat1 V c).before 7 t d = iblk1 V c 7 t) := by
  refine ⟨?_, ?_, ?_, ?_, ?_, ?_, ?_, ?_⟩ <;>
    exact fun d => ((dat1 V c).before_in_eq_fetched _ rfl (fun _ => rfl) (fun _ _ _ => rfl) (fun _ => rfl) t d).trans rfl

abbrev cond1 (i : grid1.Coords) : Prop :=
  Scalar.cmpi .ne (Scalar.extui (Scalar.cmpi .eq (BitVec.ofNat 32 (i 0).val) 0#32 : BitVec 1) : BitVec 32) 0#32 = 1#1

/-- The body's branch is taken at the first point and at no other. -/
theorem hcond1 : ∀ t : Fin cfg1.N, cond1 (grid1.coords t) ↔ t.val = 0 :=
  (by decide +kernel : ∀ t : Fin grid1.N, cond1 (grid1.coords t) ↔ t.val = 0)

theorem hz2 : (![0, 0] : Fin 2 → Nat) = fun _ => 0 := funext fun a => by fin_cases a <;> rfl

theorem ld_r1N (X : Vec F S1024x1 .f32) : View.ld X r1N = X := View.ld_unit_zero hz2 _ X
theorem readCov_r1N (v : View sig .tc .vmem S1024x1 .f32) (w : Vec F S1024x1 .f32) :
    v.readCov [(⟨r1N, w⟩ : View.Piece (Elt F) S1024x1 .f32)] r1N.toLoadRect = w := View.readCov_unit_zero v hz2 _ w

/-- At the first point the scratch becomes the multiplier and the offset of the statistics, later it stays as found; each output is its two stores over the inputs and that scratch. -/
theorem sound_kernel1 (c : Dev nD) (t : Fin cfg1.N)
    (x0 : Vec F S2x1024x256 .bf16) (x1 : Vec F S2x1024x1024 .f32) (x2 : Vec F S256x256 .f32) (x3 : Vec F S1x256 .f32)
    (x4 x5 : Vec F S16x1024x1 .f32) (x6 x7 : Vec F S1024x1 .f32) (d8 : Vec F S2x1024x256 .bf16) (d9 d10 : Vec F S2x1024x1 .f32)
    (a0 c0 a cc : Vec F S1024x1 .f32)
    (h : t.val = 0 ∧ a = aV1 x4 x5 x6 ∧ cc = cV1 x4 x5 x6 x7 ∨ t.val ≠ 0 ∧ a = a0 ∧ cc = c0) (K : PUnit → sProp 𝕄) :
    iprop(owns (c : Thread nD τ) (st1_0 t) fullShare x0 ∗ owns (c : Thread nD τ) (st1_1 t) fullShare x1 ∗ owns (c : Thread nD τ) (st1_2 t) fullShare x2 ∗ owns (c : Thread nD τ) (st1_3 t) fullShare x3 ∗ owns (c : Thread nD τ) (st1_4 t) fullShare x4 ∗ owns (c : Thread nD τ) (st1_5 t) fullShare x5 ∗ owns (c : Thread nD τ) (st1_6 t) fullShare x6 ∗ owns (c : Thread nD τ) (st1_7 t) fullShare x7
        ∗ owns (c : Thread nD τ) (st1_8 t) fullShare d8 ∗ owns (c : Thread nD τ) (st1_9 t) fullShare d9 ∗ owns (c : Thread nD τ) (st1_10 t) fullShare d10
        ∗ owns (c : Thread nD τ) (Memref.whole cc1_scratch0) fullShare a0 ∗ owns (c : Thread nD τ) (Memref.whole cc1_scratch1) fullShare c0
        ∗ (iprop(owns (c : Thread nD τ) (st1_0 t) fullShare x0 ∗ owns (c : Thread nD τ) (st1_1 t) fullShare x1 ∗ owns (c : Thread nD τ) (st1_2 t) fullShare x2 ∗ owns (c : Thread nD τ) (st1_3 t) fullShare x3 ∗ owns (c : Thread nD τ) (st1_4 t) fullShare x4 ∗ owns (c : Thread nD τ) (st1_5 t) fullShare x5 ∗ owns (c : Thread nD τ) (st1_6 t) fullShare x6 ∗ owns (c : Thread nD τ) (st1_7 t) fullShare x7
            ∗ owns (c : Thread nD τ) (st1_8 t) fullShare (out1_8 x0 x1 x2 x3 a cc)
            ∗ owns (c : Thread nD τ) (st1_9 t) fullShare (out1_9 x0 x1 x2 x3 a cc)
            ∗ owns (c : Thread nD τ) (st1_10 t) fullShare (out1_10 x0 x1 x2 x3 a cc)
            ∗ owns (c : Thread nD τ) (Memref.whole cc1_scratch0) fullShare a
            ∗ owns (c : Thread nD τ) (Memref.whole cc1_scratch1) fullShare cc) -∗ K ⟨⟩))
      ⊢ wp frame (wpE (defs₀ (F := F)) Variants.none c none) Set.univ (bodyAt1 t) K := by
  unfold bodyAt1
  simp only [cc1__k2_eq_skeleton]; unfold cc1__k2_skel
  simp only [k1_part1_eq_skeleton, k1_part2_eq_skeleton]; unfold k1_part1_skel k1_part2_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩,
    ⟨%f8, -, H8⟩, ⟨%f9, -, H9⟩, ⟨%f10, -, H10⟩, ⟨%f11, %hf11, H11⟩, ⟨%f12, %hf12, H12⟩, Hk⟩
  subst hf0 hf1 hf2 hf3 hf4 hf5 hf6 hf7 hf11 hf12
  rcases h with ⟨hc, rfl, rfl⟩ | ⟨hc, rfl, rfl⟩ <;>
  · sl_exec (disch := first | exact (hcond1 t).mpr hc | exact fun h => hc ((hcond1 t).mp h))
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      try dsimp only
      refine Eq.trans (View.read_writes_eq_canon _ _ _ (View.cover_of_tiled _ S1x1024x256.size (by rfl))) ?_
      first
        | (unfold out1_8 aV1 cV1; sl_unfold_words
           rw [readCov_r1N, readCov_r1N, ld_r1N (k1_pay5 _ _ _), ld_r1N (k1_pay6 _ _ _ _)]; rfl)
        | rfl
    isplitl [H9]
    · iexists _; isplitr
      swap; · iexact H9
      ipureintro
      try dsimp only
      refine Eq.trans (View.read_writes_eq_canon _ _ _ (View.cover_of_tiled _ S1x1024x1.size (by rfl))) ?_
      first
        | (unfold out1_9 aV1 cV1; sl_unfold_words
           rw [readCov_r1N, readCov_r1N, ld_r1N (k1_pay5 _ _ _), ld_r1N (k1_pay6 _ _ _ _)]; rfl)
        | rfl
    isplitl [H10]
    · iexists _; isplitr
      swap; · iexact H10
      ipureintro
      try dsimp only
      refine Eq.trans (View.read_writes_eq_canon _ _ _ (View.cover_of_tiled _ S1x1024x1.size (by rfl))) ?_
      first
        | (unfold out1_10 aV1 cV1; sl_unfold_words
           rw [readCov_r1N, readCov_r1N, ld_r1N (k1_pay5 _ _ _), ld_r1N (k1_pay6 _ _ _ _)]; rfl)
        | rfl
    isplitl [H11]
    · iexists _; isplitr
      swap; · iexact H11
      ipureintro
      first
        | (try dsimp only
           sl_unfold_words
           exact Eq.trans (View.read_writes_eq_canon _ _ _ (View.cover_of_tiled _ S1024x1.size (by rfl))) (View.canon_unit_zero hz2 _ _))
        | rfl
    iexists _; isplitr
    swap; · iexact H12
    ipureintro
    first
      | (try dsimp only
         sl_unfold_words
         exact Eq.trans (View.read_writes_eq_canon _ _ _ (View.cover_of_tiled _ S1024x1.size (by rfl))) (View.canon_unit_zero hz2 _ _))
      | rfl

theorem after1_8 (c : Dev nD) (t : Fin cfg1.N) : (dat1 V c).after 8 t = out1_8 (iblk1 V c 0 t) (iblk1 V c 1 t) (iblk1 V c 2 t) (iblk1 V c 3 t) (scA1 V c) (scC1 V c) := by dsimp only [dat1]
theorem after1_9 (c : Dev nD) (t : Fin cfg1.N) : (dat1 V c).after 9 t = out1_9 (iblk1 V c 0 t) (iblk1 V c 1 t) (iblk1 V c 2 t) (iblk1 V c 3 t) (scA1 V c) (scC1 V c) := by dsimp only [dat1]
theorem after1_10 (c : Dev nD) (t : Fin cfg1.N) : (dat1 V c).after 10 t = out1_10 (iblk1 V c 0 t) (iblk1 V c 1 t) (iblk1 V c 2 t) (iblk1 V c 3 t) (scA1 V c) (scC1 V c) := by dsimp only [dat1]

/-- The entry invariant with the two scratch arrays split off. -/
theorem PhiA1_eq (c : Dev nD) :
    (Pipeline.ΦA spec1 c : sProp 𝕄)
      = iprop(iprop(iprop((∃ d, owns (c : Thread nD τ) (Memref.whole cc1_scratch0) fullShare d) ∗ (∃ d, owns (c : Thread nD τ) (Memref.whole cc1_scratch1) fullShare d))
          ∗ Pipeline.scopedRestBut (Ix := Unit) (Name := ℕ) (U := UR sig nD τ) (Lvl := ℕ) (Val := Elt F) spec1 c [cc1_scratch0, cc1_scratch1])
          ∗ (∃ r, prngReg c r)) := by
  unfold Pipeline.ΦA
  rw [Pipeline.scopedRest_split_of_list spec1 c [cc1_scratch0, cc1_scratch1] (by decide) (by decide)]
  simp only [owns_whole]; try rfl

theorem Phi1_pos (c : Dev nD) (n : ℕ) (hn : n ≠ 0) : Phi1 V c n = Phi1 V c (n + 1) := by
  cases n with
  | zero => exact absurd rfl hn
  | succ n => rfl

def pre1 (c : Dev nD) (t : Fin cfg1.N) (w : Fin cfg1.W) : sProp 𝕄 :=
  iprop(∃ d, owns (c : Thread nD τ) ((cfg1.win w).stage (cfg1.slots t w)) fullShare ((dat1 V c).before w t d))

/-- At the first point the invariant hands over the scratch at anything and gets it back named; at a later point it hands it over named and gets it back unchanged. -/
theorem sound_body1 (c : Dev nD) (t : Fin cfg1.N) :
    iprop((dat1 V c).Φ t.castSucc ∗ (dat1 V c).owesAt () t.castSucc
      ∗ pre1 V c t 0 ∗ pre1 V c t 1 ∗ pre1 V c t 2 ∗ pre1 V c t 3 ∗ pre1 V c t 4 ∗ pre1 V c t 5 ∗ pre1 V c t 6 ∗ pre1 V c t 7 ∗ pre1 V c t 8 ∗ pre1 V c t 9 ∗ pre1 V c t 10)
      ⊢ wp frame (wpE (defs₀ (F := F)) Variants.none c none) Set.univ (bodyAt1 t) fun _ =>
        iprop((dat1 V c).Φ t.succ ∗ (dat1 V c).owesAt () t.succ
          ∗ owns (c : Thread nD τ) (st1_0 t) fullShare (iblk1 V c 0 t)
          ∗ owns (c : Thread nD τ) (st1_1 t) fullShare (iblk1 V c 1 t)
          ∗ owns (c : Thread nD τ) (st1_2 t) fullShare (iblk1 V c 2 t)
          ∗ owns (c : Thread nD τ) (st1_3 t) fullShare (iblk1 V c 3 t)
          ∗ owns (c : Thread nD τ) (st1_4 t) fullShare (iblk1 V c 4 t)
          ∗ owns (c : Thread nD τ) (st1_5 t) fullShare (iblk1 V c 5 t)
          ∗ owns (c : Thread nD τ) (st1_6 t) fullShare (iblk1 V c 6 t)
          ∗ owns (c : Thread nD τ) (st1_7 t) fullShare (iblk1 V c 7 t)
          ∗ owns (c : Thread nD τ) (st1_8 t) fullShare ((dat1 V c).after 8 t)
          ∗ owns (c : Thread nD τ) (st1_9 t) fullShare ((dat1 V c).after 9 t)
          ∗ owns (c : Thread nD τ) (st1_10 t) fullShare ((dat1 V c).after 10 t)) := by
  unfold pre1
  obtain ⟨b0, b1, b2, b3, b4, b5, b6, b7⟩ := before1 V c t
  simp only [b0, b1, b2, b3, b4, b5, b6, b7]
  rw [show (dat1 V c).owesAt () t.succ = (dat1 V c).owesAt () t.castSucc from rfl,
    show (dat1 V c).Φ t.succ = Phi1 V c (t.val + 1) from rfl, Phi1,
    show (dat1 V c).Φ t.castSucc = Phi1 V c t.val from rfl, after1_8, after1_9, after1_10]
  by_cases hz : t.val = 0
  · obtain rfl : t = t1_0 := Fin.ext hz
    rw [show Phi1 V c t1_0.val = Pipeline.ΦA spec1 c from rfl, PhiA1_eq]
    iintro ⟨⟨⟨⟨⟨%e0, HS0⟩, ⟨%e1, HS1⟩⟩, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1 c t1_0 _ _ _ _ _ _ _ _ _ _ _ _ _ (scA1 V c) (scC1 V c) (.inl ⟨rfl, rfl, rfl⟩) _)
    iframe
    iintro ⟨H0, H1, H2, H3, H4, H5, H6, H7, H8, H9, H10, HS0, HS1⟩
    iframe
  · rw [Phi1_pos V c _ hz, Phi1]
    iintro ⟨⟨HS0, HS1, HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel1 c t _ _ _ _ _ _ _ _ _ _ _ _ _ (scA1 V c) (scC1 V c) (.inr ⟨hz, rfl, rfl⟩) _)
    iframe
    iintro ⟨H0, H1, H2, H3, H4, H5, H6, H7, H8, H9, H10, HS0, HS1⟩
    iframe

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := Idealize.SL.BI.Entails.refl _

/-- After the last point the scratch's named contents are forgotten. -/
theorem hout1 (c : Dev nD) : (dat1 V c).Φ (Fin.last cfg1.N) ⊢ Pipeline.ΦA spec1 c := by
  rw [show (dat1 V c).Φ (Fin.last cfg1.N) = Phi1 V c (7 + 1) from rfl, Phi1, PhiA1_eq]
  iintro ⟨HS0, HS1, HR, Hg⟩
  iframe
  isplitl [HS0]
  · iexists _; iexact HS0
  iexists _; iexact HS1

end Region1

end Cert.KernelIdeal.Hand

end
-- ==== Proof.R2.lean ====
import proofs.«127664_g88656714924069_cont_sun_m_1396_9_alg».proof.Proof.Gen.KernelIdeal.Launch
import proofs.«127664_g88656714924069_cont_sun_m_1396_9_alg».proof.Proof.Gen.KernelIdeal.Skeleton
import proofs.«127664_g88656714924069_cont_sun_m_1396_9_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

section Region2
variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2Y : Rect S4x1024x256 := Rect.unit (s := S4x1024x256) ![0, 0, 0] S4x1024x256.size inb_S4x1024x256_S4x1024x256_0_0_0
abbrev r2Q : Rect S16x1024x1 := Rect.unit (s := S16x1024x1) ![0, 0, 0] S16x1024x1.size inb_S16x1024x1_S16x1024x1_0_0_0
abbrev r2N : Rect S1024x1 := Rect.unit (s := S1024x1) ![0, 0] S1024x1.size inb_S1024x1_S1024x1_0_0

/-- Row scale a = γ · rsqrt(var + ε), the variance from the batch sums of s and q. -/
def aV2 (x1 x2 : Vec F S16x1024x1 .f32) (x3 : Vec F S1024x1 .f32) : Vec F S1024x1 .f32 :=
  k2_pay3 (View.ld x1 r2Q) (View.ld x2 r2Q) (View.ld x3 r2N)
/-- Row shift c = β − mean · a. -/
def cV2 (x1 x2 : Vec F S16x1024x1 .f32) (x3 x4 : Vec F S1024x1 .f32) : Vec F S1024x1 .f32 :=
  k2_pay4 (View.ld x1 r2Q) (View.ld x2 r2Q) (View.ld x3 r2N) (View.ld x4 r2N)
/-- The output y · a + c. -/
def out2_5 (x0 : Vec F S4x1024x256 .bf16) (a c : Vec F S1024x1 .f32) : Vec F S4x1024x256 .f32 :=
  View.canon [⟨r2Y, k2_pay5 (View.ld x0 r2Y) (View.ld a r2N) (View.ld c r2N)⟩]

def scA2 (c : Dev nD) : Vec F S1024x1 .f32 := aV2 (iblk2 V c 1 t2_0) (iblk2 V c 2 t2_0) (iblk2 V c 3 t2_0)
def scC2 (c : Dev nD) : Vec F S1024x1 .f32 := cV2 (iblk2 V c 1 t2_0) (iblk2 V c 2 t2_0) (iblk2 V c 3 t2_0) (iblk2 V c 4 t2_0)

def Inv2 (c : Dev nD) : sProp 𝕄 :=
  iprop(owns (c : Thread nD τ) (Memref.whole cc2_scratch0) fullShare (scA2 V c) ∗ owns (c : Thread nD τ) (Memref.whole cc2_scratch1) fullShare (scC2 V c)
    ∗ Pipeline.scopedRestBut (Ix := Unit) (Name := ℕ) (U := UR sig nD τ) (Lvl := ℕ) (Val := Elt F) spec2 c [cc2_scratch0, cc2_scratch1] ∗ (∃ r, prngReg c r))

def Phi2 (c : Dev nD) : ℕ → sProp 𝕄
  | 0 => Pipeline.ΦA spec2 c
  | _ + 1 => Inv2 V c

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (scA2 V c) (scC2 V c)
  Φ t := Phi2 V c t.val
  q _ := fullShare
  owed _ := 0

theorem A_eq2 (c : Dev nD) (w : Fin cfg2.W) : (dat2 V c).A w = V c (Pipeline.arrRef spec2 w) := rfl
theorem after2_5 (c : Dev nD) (t : Fin cfg2.N) : (dat2 V c).after 5 t = out2_5 (iblk2 V c 0 t) (scA2 V c) (scC2 V c) := by dsimp only [dat2]

abbrev atFirst2 (i : grid2.Coords) : Prop :=
  (Scalar.cmpi .ne (Scalar.extui (Scalar.cmpi .eq (BitVec.ofNat 32 (i 0).val) 0#32)) 0#32) = 1#1

theorem atFirst2_iff : ∀ t : Fin cfg2.N, atFirst2 (grid2.coords t) ↔ t.val = 0 :=
  (by decide +kernel : ∀ t : Fin grid2.N, atFirst2 (grid2.coords t) ↔ t.val = 0)

theorem zero2 : (![0, 0] : Fin 2 → Nat) = fun _ => 0 := funext fun a => by fin_cases a <;> rfl
theorem zero3 : (![0, 0, 0] : Fin 3 → Nat) = fun _ => 0 := funext fun a => by fin_cases a <;> rfl

/-- A write over the whole shape reads back as its payload. -/
private theorem read_writes_unit {κ : Kind} {sp : Space} {S : Shape} {e : EltTy} (v : View sig κ sp S e) (f : v.ty.Contents (Elt F))
    {off : Fin S.rank → ℕ} (hz : off = fun _ => 0) (inb : ∀ a, off a + S.size a ≤ S.size a) (p : S.Idx → Elt F e) :
    v.read (Elt F) (v.writes (Elt F) f [⟨Rect.unit off S.size inb, p⟩]) = p :=
  (View.read_writes_eq_canon _ _ _ fun y => ⟨_, List.mem_singleton_self _, View.mem_set_unit_zero hz inb y⟩).trans (View.canon_unit_zero hz inb p)

section Body
variable (c : Dev nD) (i : grid2.Coords)
  (m1 : Memref sig .tc .vmem S4x1024x256 .bf16) (h1 : m1.IsWhole) (m2 m3 : Memref sig .tc .vmem S16x1024x1 .f32) (h2 : m2.IsWhole) (h3 : m3.IsWhole)
  (m4 m5 : Memref sig .tc .vmem S1024x1 .f32) (h4 : m4.IsWhole) (h5 : m5.IsWhole) (m6 : Memref sig .tc .vmem S4x1024x256 .f32) (h6 : m6.IsWhole)
  (m7 m8 : Memref sig .tc .vmem S1024x1 .f32) (h7 : m7.IsWhole) (h8 : m8.IsWhole)
  (x0 : Vec F S4x1024x256 .bf16) (x1 x2 : Vec F S16x1024x1 .f32) (x3 x4 : Vec F S1024x1 .f32)

private abbrev held2 (o : Vec F S4x1024x256 .f32) (a b : Vec F S1024x1 .f32) : sProp 𝕄 :=
  iprop(owns (c : Thread nD τ) m6 fullShare o ∗ owns (c : Thread nD τ) m7 fullShare a ∗ owns (c : Thread nD τ) m8 fullShare b ∗ owns (c : Thread nD τ) m1 fullShare x0
    ∗ owns (c : Thread nD τ) m2 fullShare x1 ∗ owns (c : Thread nD τ) m3 fullShare x2 ∗ owns (c : Thread nD τ) m4 fullShare x3 ∗ owns (c : Thread nD τ) m5 fullShare x4)

/-- The scale and the shift are computed from the statistics at the first point and reused afterwards; the output is the activations times the scale plus the shift. -/
private theorem sound_kernel2 (E : Set ℕ) (o : Vec F S4x1024x256 .f32) (a₀ b₀ a b : Vec F S1024x1 .f32) (K : PUnit → sProp 𝕄)
    (h : atFirst2 i ∧ a = aV2 x1 x2 x3 ∧ b = cV2 x1 x2 x3 x4 ∨ ¬atFirst2 i ∧ a = a₀ ∧ b = b₀) :
    iprop(held2 c m1 m2 m3 m4 m5 m6 m7 m8 x0 x1 x2 x3 x4 o a₀ b₀ ∗ (held2 c m1 m2 m3 m4 m5 m6 m7 m8 x0 x1 x2 x3 x4 (out2_5 x0 a b) a b -∗ K ⟨⟩))
      ⊢ wp frame (wpE (defs₀ (F := F)) Variants.none c none) E (cc2__k3 i m1 h1 m2 h2 m3 h3 m4 h4 m5 h5 m6 h6 m7 h7 m8 h8) K := by
  simp only [cc2__k3_eq_skeleton]; unfold cc2__k3_skel held2 owns
  iintro ⟨⟨⟨%f5, -, H5⟩, ⟨%f6, %e6, H6⟩, ⟨%f7, %e7, H7⟩, ⟨%f0, %e0, H0⟩, ⟨%f1, %e1, H1⟩, ⟨%f2, %e2, H2⟩, ⟨%f3, %e3, H3⟩, ⟨%f4, %e4, H4⟩⟩, Hk⟩
  subst e0 e1 e2 e3 e4 e6 e7
  rcases h with ⟨hc, rfl, rfl⟩ | ⟨hc, rfl, rfl⟩
  all_goals
    sl_exec (disch := exact hc)
    sl_step
    iapply Hk
    isplitl [H5]
    · iexists _; isplitr; swap; · iexact H5
      ipureintro; sl_unfold_words
      rw [read_writes_unit _ _ zero3]
      simp only [out2_5, aV2, cV2, View.canon_unit_zero (S := S4x1024x256) zero3, View.readAt_eq_ld, View.readCov_unit_zero (S := S1024x1) _ zero2, View.ld_unit_zero (S := S1024x1) zero2]
    isplitl [H6]
    · iexists _; isplitr; swap; · iexact H6
      ipureintro
      first | rfl | exact read_writes_unit _ _ zero2 _ _
    isplitl [H7]
    · iexists _; isplitr; swap; · iexact H7
      ipureintro
      first | rfl | exact read_writes_unit _ _ zero2 _ _
    sl_close
end Body

theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;> exact (dat2 V c).before_in_eq_fetched _ rfl (fun _ => rfl) (fun _ _ _ => rfl) (fun _ => rfl) t

theorem PhiA2_eq (c : Dev nD) :
    (Pipeline.ΦA spec2 c : sProp 𝕄)
      = iprop((((∃ d, owns (c : Thread nD τ) (Memref.whole cc2_scratch0) fullShare d) ∗ (∃ d, owns (c : Thread nD τ) (Memref.whole cc2_scratch1) fullShare d))
          ∗ Pipeline.scopedRestBut (Ix := Unit) (Name := ℕ) (U := UR sig nD τ) (Lvl := ℕ) (Val := Elt F) spec2 c [cc2_scratch0, cc2_scratch1])
          ∗ (∃ r, prngReg c r)) := by
  unfold Pipeline.ΦA; rw [scopedRest2_split]; simp only [owns_whole]

theorem Phi2_pos (c : Dev nD) : ∀ n, n ≠ 0 → Phi2 V c n = Inv2 V c
  | 0, h => absurd rfl h
  | _ + 1, _ => rfl

theorem body_obligation2 (c : Dev nD) : BodyObligation (dat2 (F := F) V c) (defs₀ (F := F)) Variants.none () Set.univ := fun t => by
  rw [bigSep_W2, bigSep_W2]
  show _ ⊢ wp _ _ _ (bodyAt2 t) _
  obtain ⟨b0, b1, b2, b3, b4⟩ := before2 V c t
  simp only [b0, b1, b2, b3, b4]
  rw [show (dat2 V c).Φ t.castSucc = Phi2 V c t.val from rfl, show (dat2 V c).Φ t.succ = Inv2 V c from rfl]; unfold Inv2
  dsimp only [dat2]
  by_cases hz : t.val = 0
  case' pos =>
    obtain rfl : t = t2_0 := Fin.ext hz
    rw [show Phi2 V c (t2_0 : Fin cfg2.N).val = Pipeline.ΦA spec2 c from rfl, PhiA2_eq]
    iintro ⟨⟨⟨⟨⟨%a, HA⟩, ⟨%b, HC⟩⟩, HR⟩, Hg⟩, Ho, ⟨%d0, H0⟩, ⟨%d1, H1⟩, ⟨%d2, H2⟩, ⟨%d3, H3⟩, ⟨%d4, H4⟩, ⟨%d5, H5⟩⟩
    iapply sound_kernel2 (a := scA2 V c) (b := scC2 V c) (h := .inl ⟨(atFirst2_iff t2_0).mpr rfl, rfl, rfl⟩)
  case' neg =>
    rw [Phi2_pos V c _ hz]; unfold Inv2
    iintro ⟨⟨HA, HC, HR, Hg⟩, Ho, ⟨%d0, H0⟩, ⟨%d1, H1⟩, ⟨%d2, H2⟩, ⟨%d3, H3⟩, ⟨%d4, H4⟩, ⟨%d5, H5⟩⟩
    iapply sound_kernel2 (h := .inr ⟨fun h => hz ((atFirst2_iff t).mp h), rfl, rfl⟩)
  all_goals
    isplitl [H0 H1 H2 H3 H4 H5 HA HC]; · sl_close
    iintro ⟨H5, HA, HC, H0, H1, H2, H3, H4⟩
    iframe H0 H1 H2 H3 H4 H5 HA HC HR Hg
    iexact Ho

theorem hin2 (c : Dev nD) : Pipeline.ΦA spec2 c ⊢ (dat2 V c).Φ 0 := Entails.refl _

theorem hout2 (c : Dev nD) : (dat2 V c).Φ (Fin.last cfg2.N) ⊢ Pipeline.ΦA spec2 c := by
  rw [show (dat2 V c).Φ (Fin.last cfg2.N) = Inv2 V c from rfl, PhiA2_eq]; unfold Inv2
  iintro ⟨HA, HC, HR, Hg⟩
  iframe HR Hg
  isplitl [HA] <;> iexists _ <;> iassumption

end Region2

end Cert.KernelIdeal.Hand

end
-- ==== Proof.Run.lean ====
import proofs.«127664_g88656714924069_cont_sun_m_1396_9_alg».proof.Proof.R0
import proofs.«127664_g88656714924069_cont_sun_m_1396_9_alg».proof.Proof.R1
import proofs.«127664_g88656714924069_cont_sun_m_1396_9_alg».proof.Proof.R2

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After a region: each window's array at its final contents, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b

abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
abbrev V6 : (c : Dev nD) → (b : Ref sig .tc) → Buf (Elt F) ((c : Thread nD τ).loc b) := fun c b => W6 m ρ c b

abbrev adm : (p : Fin 3) → (pcfgs (F := F) p).Adm := fun p => (cfgs p).toPCfg_adm
/-- Each region's proof data, at the contents its entry finds. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m ρ c) ∗ ∃ r, prngReg c r)

private abbrev sp (p : Fin 3) := (Pipeline.pin (pcfgs (F := F)) adm p).spec

set_option backward.isDefEq.respectTransparency.types false in
/-- A region as a segment: entered with every unscoped buffer at `Wi`, left with them at `Wo`, which has the windows' arrays at their final contents and is `Wi` elsewhere; nothing owed. -/
private def mkReg (p : Fin 3) (lf : Pipeline.LaunchFacts (nD := nD) (τ := τ) cfgs p)
    (hb : ∀ c, BodyObligation (pdats m ρ p c) (defs₀ (F := F)) 𝒱₀ () Set.univ) (Wi Wo : Dev nD → Valuation τ sig (Elt F))
    (hq : ∀ c w, (pdats m ρ p c).q w = fullShare) (hz : ∀ c t, (pdats m ρ p c).owed t = 0) (hr : ∀ c, (pdats m ρ p c).recorded 0 = Set.univ)
    (hA : ∀ c w, (pdats m ρ p c).A w = Wi c (Proc.devRef .tc (Pipeline.arrRef (sp (F := F) p) w)))
    (hi : ∀ c, Pipeline.ΦA (sp (F := F) p) c ⊢ (pdats m ρ p c).Φ 0)
    (ho : ∀ c, (pdats m ρ p c).Φ (Fin.last _) ⊢ Pipeline.ΦA (sp (F := F) p) c)
    (harr : ∀ c w, Wo c (Proc.devRef .tc (Pipeline.arrRef (sp (F := F) p) w)) = (pdats m ρ p c).arrAt w (Pipeline.pin (pcfgs (F := F)) adm p).N)
    (hne : ∀ c (b : Ref sig .tc), (∀ w, Pipeline.arrRef (sp (F := F) p) w ≠ b) → Wo c (Proc.devRef .tc b) = Wi c (Proc.devRef .tc b)) :
    Pipeline.RegionSeg (pcfgs (F := F)) adm (pdats m ρ) () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (sp (F := F) p) c fun b => Wi c b
  hentry c := by
    rw [Pipeline.ownSems0_none]
    have hsplit := Pipeline.arrays_of_unscopedBufs (p := p) (pcfgs (F := F)) adm (pdats m ρ) lf.win lf.arr_whole c
      ((pdats m ρ p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    iframe
    isplitr; · unfold Pipeline.prefHeld; rw [show (Finset.univ : Finset (Fin 0)) = ∅ from rfl, BI.bigSep_empty]; iempintro
    unfold Pipeline.Dat.owesAt Pipeline.owesWithin
    icases HO with ⟨%W, HO⟩; iexists W; isplitr; · ipureintro; exact fun _ _ => Or.inl (by rw [hr c]; trivial)
    rw [hz]; iexact HO
  hin c := by
    refine .trans ?_ (hi c); unfold Pipeline.ΦA
    iintro ⟨Hp, -, Hr⟩; iframe
  hout c := by
    rw [Pipeline.ownSems0_none]; refine (ho c).trans ?_; unfold Pipeline.ΦA
    iintro ⟨Hr, Hp⟩; iframe; iempintro
  hexit c := by
    have hjoin := Pipeline.unscopedBufs_of_arrays (p := p) (pcfgs (F := F)) adm (Ix := Unit) (Name := ℕ) (U := UR sig nD τ) (Lvl := ℕ)
      lf.win lf.arr_whole c (pdats m ρ) ((pdats m ρ p c).share_full (hq c))
      (fun b => Wi c b) (fun b => Wo c b) ((pdats m ρ p c).arrAt · _) (fun w => (harr c w).symm) (fun b hb => hne c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; rw [hz]; iexact HO

set_option backward.isDefEq.respectTransparency.types false in
def reg0 : Pipeline.RegionSeg (pcfgs (F := F)) adm (pdats m ρ) () defs₀ 𝒱₀ L lv 0 :=
  mkReg m ρ 0 launch0 (body_obligation0 (V1 m ρ)) (W1 m ρ) (W2 m ρ) (fun _ _ => rfl) (fun _ _ => rfl) (fun _ => rfl) (fun _ _ => rfl)
    (fun _ => .rfl) (fun _ => .rfl) (W2_arr m ρ) (W2_of_ne m ρ)
set_option backward.isDefEq.respectTransparency.types false in
def reg1 : Pipeline.RegionSeg (pcfgs (F := F)) adm (pdats m ρ) () defs₀ 𝒱₀ L lv 1 :=
  mkReg m ρ 1 launch1 (body_obligation1 (V3 m ρ)) (W3 m ρ) (W4 m ρ) (fun _ _ => rfl) (fun _ _ => rfl) (fun _ => rfl) (fun _ _ => rfl)
    (hin1 (V3 m ρ)) (hout1 (V3 m ρ)) (W4_arr m ρ) (W4_of_ne m ρ)
set_option backward.isDefEq.respectTransparency.types false in
def reg2 : Pipeline.RegionSeg (pcfgs (F := F)) adm (pdats m ρ) () defs₀ 𝒱₀ L lv 2 :=
  mkReg m ρ 2 launch2 (body_obligation2 (V5 m ρ)) (W5 m ρ) (W6 m ρ) (fun _ _ => rfl) (fun _ _ => rfl) (fun _ => rfl) (fun _ _ => rfl)
    (hin2 (V5 m ρ)) (hout2 (V5 m ρ)) (W6_arr m ρ) (W6_of_ne m ρ)

abbrev segs : List (Pipeline.Seg (pcfgs (F := F)) adm (pdats m ρ) () defs₀ 𝒱₀ L lv) :=
  [ .host (hseg hostOps0 hostOps0_sub (by simp only [List.Forall]; repeat' constructor) (W0 m ρ)),
    .region (reg0 m ρ),
    .host (hseg hostOps1 hostOps1_sub (by simp only [List.Forall]; repeat' constructor) (W2 m ρ)),
    .region (reg1 m ρ),
    .host (hseg hostOps2 hostOps2_sub (by simp only [List.Forall]; repeat' constructor) (W4 m ρ)),
    .region (reg2 m ρ) ]
theorem main_run (c : Dev nD) : main (F := F) c = Pipeline.Seg.run (segs m ρ) := (main_chain c).trans (by chain_rfl)

set_option backward.isDefEq.respectTransparency.types false in
/-- Every weakly fair execution ends, each unscoped buffer at the last fold's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => sep_assoc.2⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      iframe Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

end Cert.KernelIdeal.Hand

end
-- ==== Proof.RunArgs.lean ====
import proofs.«127664_g88656714924069_cont_sun_m_1396_9_alg».proof.Proof.Run

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg) (c : Dev nD)

/-- A host stretch changes only the buffers its reshapes write. -/
theorem W1_of_ne (b : Ref sig .tc) (h0 : b ≠ main_call0_v0) :
    W1 m ρ c (Proc.devRef .tc b) = W0 m ρ c (Proc.devRef .tc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne h0))
theorem W3_of_ne (b : Ref sig .tc) (h : b ≠ main_call0_v2 ∧ b ≠ main_call0_v3 ∧ b ≠ main_call0_v4) :
    W3 m ρ c (Proc.devRef .tc b) = W2 m ρ c (Proc.devRef .tc b) :=
  StableHlo.after_of_forall_not_mem (b := Proc.devRef .tc b) _ _ (List.forall_iff_forall_mem.mp (by
    simp only [hostOps1, List.Forall, StableHlo.reshape_writes, Finset.mem_singleton]
    exact ⟨StableHlo.devRef_ne_of_ne h.1, StableHlo.devRef_ne_of_ne h.2.1, StableHlo.devRef_ne_of_ne h.2.2⟩))
theorem W5_of_ne (b : Ref sig .tc) (h : b ≠ main_call0_v6 ∧ b ≠ main_call0_v7) :
    W5 m ρ c (Proc.devRef .tc b) = W4 m ρ c (Proc.devRef .tc b) :=
  StableHlo.after_of_forall_not_mem (b := Proc.devRef .tc b) _ _ (List.forall_iff_forall_mem.mp (by
    simp only [hostOps2, List.Forall, StableHlo.reshape_writes, Finset.mem_singleton]
    exact ⟨StableHlo.devRef_ne_of_ne h.1, StableHlo.devRef_ne_of_ne h.2⟩))

/-- A region changes only its output windows' arrays. -/
theorem W2_keep (b : Ref sig .tc) (h : ∀ w, Pipeline.arrRef spec0 w = b → (cfg0.win w).isOut = false) :
    W2 m ρ c (Proc.devRef .tc b) = W1 m ρ c (Proc.devRef .tc b) := by
  by_cases hb : ∃ w, Pipeline.arrRef spec0 w = b
  · obtain ⟨w, rfl⟩ := hb
    exact (W2_arr m ρ c w).trans (((dat0 (V1 m ρ) c).arrAt_in w (h w rfl) _).trans (A_eq0 (V1 m ρ) c w))
  · exact W2_of_ne m ρ c b fun w e => hb ⟨w, e⟩
theorem W4_keep (b : Ref sig .tc) (h : ∀ w, Pipeline.arrRef spec1 w = b → (cfg1.win w).isOut = false) :
    W4 m ρ c (Proc.devRef .tc b) = W3 m ρ c (Proc.devRef .tc b) := by
  by_cases hb : ∃ w, Pipeline.arrRef spec1 w = b
  · obtain ⟨w, rfl⟩ := hb
    exact (W4_arr m ρ c w).trans (((dat1 (V3 m ρ) c).arrAt_in w (h w rfl) _).trans (A_eq1 (V3 m ρ) c w))
  · exact W4_of_ne m ρ c b fun w e => hb ⟨w, e⟩
theorem W6_keep (b : Ref sig .tc) (h : ∀ w, Pipeline.arrRef spec2 w = b → (cfg2.win w).isOut = false) :
    W6 m ρ c (Proc.devRef .tc b) = W5 m ρ c (Proc.devRef .tc b) := by
  by_cases hb : ∃ w, Pipeline.arrRef spec2 w = b
  · obtain ⟨w, rfl⟩ := hb
    exact (W6_arr m ρ c w).trans (((dat2 (V5 m ρ) c).arrAt_in w (h w rfl) _).trans (A_eq2 (V5 m ρ) c w))
  · exact W6_of_ne m ρ c b fun w e => hb ⟨w, e⟩

/-- A buffer that no host stretch writes and no region has as an output. -/
abbrev Kept (b : Ref sig .tc) : Prop :=
  (b ≠ main_call0_v0 ∧ (b ≠ main_call0_v2 ∧ b ≠ main_call0_v3 ∧ b ≠ main_call0_v4) ∧ b ≠ main_call0_v6 ∧ b ≠ main_call0_v7)
  ∧ (∀ w, Pipeline.arrRef spec0 w = b → (cfg0.win w).isOut = false)
  ∧ (∀ w, Pipeline.arrRef spec1 w = b → (cfg1.win w).isOut = false)
  ∧ ∀ w, Pipeline.arrRef spec2 w = b → (cfg2.win w).isOut = false

variable (b : Ref sig .tc) (h : Kept b)
include h
theorem V1_kept : V1 m ρ c b = m ((c : Thread nD τ).loc b) := (W1_of_ne m ρ c b h.1.1).trans rfl
theorem W2_kept : W2 m ρ c (Proc.devRef .tc b) = m ((c : Thread nD τ).loc b) := (W2_keep m ρ c b h.2.1).trans (V1_kept m ρ c b h)
theorem V3_kept : V3 m ρ c b = m ((c : Thread nD τ).loc b) := (W3_of_ne m ρ c b h.1.2.1).trans (W2_kept m ρ c b h)
theorem W4_kept : W4 m ρ c (Proc.devRef .tc b) = m ((c : Thread nD τ).loc b) := (W4_keep m ρ c b h.2.2.1).trans (V3_kept m ρ c b h)
theorem W6_kept : W6 m ρ c (Proc.devRef .tc b) = m ((c : Thread nD τ).loc b) :=
  (W6_keep m ρ c b h.2.2.2).trans ((W5_of_ne m ρ c b h.1.2.2).trans (W4_kept m ρ c b h))
omit h

/-- A later region reads an earlier region's output at its final contents. -/
theorem V3_out0 (w : Fin cfg0.W) (h : Pipeline.arrRef spec0 w ≠ main_call0_v2 ∧ Pipeline.arrRef spec0 w ≠ main_call0_v3 ∧ Pipeline.arrRef spec0 w ≠ main_call0_v4) :
    V3 m ρ c (Pipeline.arrRef spec0 w) = (dat0 (V1 m ρ) c).arrAt w cfg0.N := (W3_of_ne m ρ c _ h).trans (W2_arr m ρ c w)
theorem V5_out1 (w : Fin cfg1.W) (h : Pipeline.arrRef spec1 w ≠ main_call0_v6 ∧ Pipeline.arrRef spec1 w ≠ main_call0_v7) :
    V5 m ρ c (Pipeline.arrRef spec1 w) = (dat1 (V3 m ρ) c).arrAt w cfg1.N := (W5_of_ne m ρ c _ h).trans (W4_arr m ρ c w)

/-- Each host-made buffer is the reshape of an argument. -/
theorem V1_main_call0_v0 :
    (V1 m ρ c main_call0_v0 : FVec F S1x256 .f32) = shapeCast (s := S256) S1x256 (m ((c : Thread nD τ).loc main_arg3) : FVec F S256 .f32) := by
  show StableHlo.after hostOps0 (W0 m ρ c) (Proc.devRef .tc main_call0_v0) = _
  after_results
  rfl
theorem V3_main_call0_v2 :
    (V3 m ρ c main_call0_v2 : FVec F S1x256 .f32) = shapeCast (s := S256) S1x256 (m ((c : Thread nD τ).loc main_arg5) : FVec F S256 .f32) := by
  rw [← W2_kept m ρ c main_arg5 (by decide)]
  show StableHlo.after hostOps1 (W2 m ρ c) (Proc.devRef .tc main_call0_v2) = _
  after_results
  rfl
theorem V3_main_call0_v3 :
    (V3 m ρ c main_call0_v3 : FVec F S1024x1 .f32) = shapeCast (s := S1024) S1024x1 (m ((c : Thread nD τ).loc main_arg6) : FVec F S1024 .f32) := by
  rw [← W2_kept m ρ c main_arg6 (by decide)]
  show StableHlo.after hostOps1 (W2 m ρ c) (Proc.devRef .tc main_call0_v3) = _
  after_results
  rfl
theorem V3_main_call0_v4 :
    (V3 m ρ c main_call0_v4 : FVec F S1024x1 .f32) = shapeCast (s := S1024) S1024x1 (m ((c : Thread nD τ).loc main_arg7) : FVec F S1024 .f32) := by
  rw [← W2_kept m ρ c main_arg7 (by decide)]
  show StableHlo.after hostOps1 (W2 m ρ c) (Proc.devRef .tc main_call0_v4) = _
  after_results
  rfl
theorem V5_main_call0_v6 :
    (V5 m ρ c main_call0_v6 : FVec F S1024x1 .f32) = shapeCast (s := S1024) S1024x1 (m ((c : Thread nD τ).loc main_arg8) : FVec F S1024 .f32) := by
  rw [← W4_kept m ρ c main_arg8 (by decide)]
  show StableHlo.after hostOps2 (W4 m ρ c) (Proc.devRef .tc main_call0_v6) = _
  after_results
  rfl
theorem V5_main_call0_v7 :
    (V5 m ρ c main_call0_v7 : FVec F S1024x1 .f32) = shapeCast (s := S1024) S1024x1 (m ((c : Thread nD τ).loc main_arg9) : FVec F S1024 .f32) := by
  rw [← W4_kept m ρ c main_arg9 (by decide)]
  show StableHlo.after hostOps2 (W4 m ρ c) (Proc.devRef .tc main_call0_v7) = _
  after_results
  rfl

end Cert.KernelIdeal.Hand

end
-- ==== Proof.Spec.lean ====
import Idealize.ShloMosaic.PureOps.Ideal
import Idealize.ShloMosaic.PureOps.Ideal.Laws

noncomputable section

namespace Cert.Spec

open Idealize.ShloMosaic

abbrev Act := Fin 16 → Fin 1024 → Fin 256 → EReal
abbrev Adj := Fin 16 → Fin 1024 → Fin 1024 → EReal
abbrev Wt := Fin 256 → Fin 256 → EReal
abbrev Chan := Fin 256 → EReal
abbrev Node := Fin 1024 → EReal
abbrev Stat := Fin 16 → Fin 1024 → EReal

def inv4096 : EReal := Ideal.ofBits .f32 0x39800000#32
def n4096 : EReal := Ideal.ofBits .f32 0x45800000#32
def eps : EReal := Ideal.ofBits .f32 0x3727C5AC#32

-- One layer before normalisation: relu(adj · (x · W) + bias).
def support (x : Act) (W : Wt) : Act := fun b m d => ∑ c : Fin 256, x b m c * W c d
def conv (x : Act) (adj : Adj) (W : Wt) (bias : Chan) : Act :=
  fun b n d => max ((∑ m : Fin 1024, adj b n m * support x W b m d) + bias d) 0

-- The kernel's normalisation: from row sums s = Σ_d y and q = Σ_d y², y · a + c with a = γ · rsqrt(var + ε), c = β − mean · a.
def rowSum (y : Act) : Stat := fun b n => ∑ d : Fin 256, y b n d
def rowSq (y : Act) : Stat := fun b n => ∑ d : Fin 256, y b n d * y b n d
def meanK (s : Stat) : Node := fun n => (∑ b : Fin 16, s b n) * inv4096
def varK (s q : Stat) : Node := fun n => (∑ b : Fin 16, q b n) * inv4096 - meanK s n * meanK s n
def scaleK (s q : Stat) (g : Node) : Node := fun n => g n * Ideal.rsqrt (varK s q n + eps)
def shiftK (s q : Stat) (g be : Node) : Node := fun n => be n - meanK s n * scaleK s q g n
def affineK (y : Act) (s q : Stat) (g be : Node) : Act := fun b n d => y b n d * scaleK s q g n + shiftK s q g be n
def bnK (y : Act) (g be : Node) : Act := affineK y (rowSum y) (rowSq y) g be

-- The reference's normalisation: the mean and the mean squared deviation over batch and channel.
def meanR (y : Act) : Node := fun n => Ideal.div (∑ b : Fin 16, ∑ d : Fin 256, y b n d) n4096
def varR (y : Act) : Node :=
  fun n => Ideal.div (∑ b : Fin 16, ∑ d : Fin 256, (y b n d - meanR y n) * (y b n d - meanR y n)) n4096
def bnR (y : Act) (g be : Node) : Act :=
  fun b n d => ((y b n d - meanR y n) * Ideal.rsqrt (varR y n + eps)) * g n + be n

def Fin3 (y : Act) : Prop := ∀ b n d, ∃ r : ℝ, y b n d = (r : EReal)
def FinAdj (y : Adj) : Prop := ∀ b n d, ∃ r : ℝ, y b n d = (r : EReal)
def Fin2 (w : Wt) : Prop := ∀ c d, ∃ r : ℝ, w c d = (r : EReal)
def Fin1c (v : Chan) : Prop := ∀ d, ∃ r : ℝ, v d = (r : EReal)
def Fin1n (v : Node) : Prop := ∀ n, ∃ r : ℝ, v n = (r : EReal)

def kernelOut (x : Act) (adj : Adj) (W1 : Wt) (b1 : Chan) (W2 : Wt) (b2 : Chan) (g1 be1 g2 be2 : Node) : Act :=
  bnK (conv (bnK (conv x adj W1 b1) g1 be1) adj W2 b2) g2 be2
def refOut (x : Act) (adj : Adj) (W1 : Wt) (b1 : Chan) (W2 : Wt) (b2 : Chan) (g1 be1 g2 be2 : Node) : Act :=
  bnR (conv (bnR (conv x adj W1 b1) g1 be1) adj W2 b2) g2 be2

end Cert.Spec

end
-- ==== Proof.Val0.lean ====
import proofs.«127664_g88656714924069_cont_sun_m_1396_9_alg».proof.Proof.R0
import proofs.«127664_g88656714924069_cont_sun_m_1396_9_alg».proof.Proof.Spec
import proofs.«127664_g88656714924069_cont_sun_m_1396_9_alg».proof.Proof.Reads

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

section Val0
variable (V : (c : Dev nD) → (b : Ref sig .tc) → Buf (Elt Ideal) ((c : Thread nD τ).loc b))

def xOf (c : Dev nD) : Cert.Spec.Act := fun b n d => (V c main_arg0 : S16x1024x256.Idx → EReal) (ix3 b n d)
def adjOf (c : Dev nD) : Cert.Spec.Adj := fun b n m => (V c main_arg1 : S16x1024x1024.Idx → EReal) (ix3 b n m)
def w1Of (c : Dev nD) : Cert.Spec.Wt := fun k d => (V c main_arg2 : S256x256.Idx → EReal) (ix2 k d)
def b1Of (c : Dev nD) : Cert.Spec.Chan := fun d => (V c main_call0_v0 : S1x256.Idx → EReal) (ix2 0 d)

variable (c : Dev nD) (t : Fin cfg0.N)

/-- The first layer on the entry arrays. -/
private abbrev y1Of : Cert.Spec.Act := Cert.Spec.conv (xOf V c) (adjOf V c) (w1Of V c) (b1Of V c)

/-- Slot p of the blocks of point t is batch 2t + p. -/
private def bat (p : Fin 2) : Fin 16 := ⟨2 * t.val + p.val, by have h : t.val < grid0.N := t.isLt; have := N_0; omega⟩

private theorem idx_facts0 : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0) :=
  (by decide +kernel : ∀ t : Fin grid0.N, _)

private theorem rd0_0 (p : Fin 2) (m : Fin 1024) (k : Fin 256) :
    (iblk0 V c 0 t : Vec Ideal S2x1024x256 .f32) ((slab p).idx (ix3 (0 : Fin 1) m k)) = xOf V c (bat t p) m k := by
  obtain ⟨⟨e0, e1, e2⟩, -⟩ := idx_facts0 t
  refine congrArg (V c main_arg0 : S16x1024x256.Idx → EReal) (funext fun a => Fin.ext ?_)
  match a with
  | ⟨0, _⟩ => show win0_0.index t (0 : Fin 3) * 2 + 1 * (p.val + 1 * 0) = 2 * t.val + p.val; omega
  | ⟨1, _⟩ => show win0_0.index t (1 : Fin 3) * 1024 + 1 * (0 + 1 * m.val) = m.val; omega
  | ⟨2, _⟩ => show win0_0.index t (2 : Fin 3) * 256 + 1 * (0 + 1 * k.val) = k.val; omega

private theorem rd0_1 (p : Fin 2) (n m : Fin 1024) :
    (iblk0 V c 1 t : Vec Ideal S2x1024x1024 .f32) ((slab p).idx (ix3 (0 : Fin 1) n m)) = adjOf V c (bat t p) n m := by
  obtain ⟨-, ⟨e0, e1, e2⟩, -⟩ := idx_facts0 t
  refine congrArg (V c main_arg1 : S16x1024x1024.Idx → EReal) (funext fun a => Fin.ext ?_)
  match a with
  | ⟨0, _⟩ => show win0_1.index t (0 : Fin 3) * 2 + 1 * (p.val + 1 * 0) = 2 * t.val + p.val; omega
  | ⟨1, _⟩ => show win0_1.index t (1 : Fin 3) * 1024 + 1 * (0 + 1 * n.val) = n.val; omega
  | ⟨2, _⟩ => show win0_1.index t (2 : Fin 3) * 1024 + 1 * (0 + 1 * m.val) = m.val; omega

private theorem rd0_2 (k d : Fin 256) :
    (iblk0 V c 2 t : Vec Ideal S256x256 .f32) (rW.idx (ix2 k d)) = w1Of V c k d := by
  obtain ⟨-, -, ⟨e0, e1⟩, -⟩ := idx_facts0 t
  refine congrArg (V c main_arg2 : S256x256.Idx → EReal) (funext fun a => Fin.ext ?_)
  match a with
  | ⟨0, _⟩ => show win0_2.index t (0 : Fin 2) * 256 + 1 * (0 + 1 * k.val) = k.val; omega
  | ⟨1, _⟩ => show win0_2.index t (1 : Fin 2) * 256 + 1 * (0 + 1 * d.val) = d.val; omega

private theorem rd0_3 (d : Fin 256) :
    (iblk0 V c 3 t : Vec Ideal S1x256 .f32) (rB.idx (ix2 (0 : Fin 1) d)) = b1Of V c d := by
  obtain ⟨-, -, -, ⟨e0, e1⟩, -⟩ := idx_facts0 t
  refine congrArg (V c main_call0_v0 : S1x256.Idx → EReal) (funext fun a => Fin.ext ?_)
  match a with
  | ⟨0, _⟩ => show win0_3.index t (0 : Fin 2) * 1 + 1 * (0 + 1 * 0) = 0; omega
  | ⟨1, _⟩ => show win0_3.index t (1 : Fin 2) * 256 + 1 * (0 + 1 * d.val) = d.val; omega

/-- The payload over slot p of point t's input blocks is relu(adj · (x · W1) + b1) at batch 2t + p. -/
private theorem pay1_blk (p : Fin 2) (n : Fin 1024) (d : Fin 256) :
    k0_pay1 (F := Ideal) (View.ld (iblk0 V c 0 t) (slab p)) (View.ld (iblk0 V c 2 t) rW)
        (View.ld (iblk0 V c 1 t) (slab p)) (View.ld (iblk0 V c 3 t) rB) (ix2 n d) = y1Of V c (bat t p) n d := by
  unfold k0_pay1 y1Of Cert.Spec.conv Cert.Spec.support
  dsimp only
  refine (maximumf_apply _ _ _).trans (congrArg₂ max ((addf_apply _ _ _).trans (congrArg₂ (· + ·) ?_ ?_)) Ideal.ofBits_zero_f32)
  · refine (mmA_apply _ _ n d).trans (Finset.sum_congr rfl fun m _ =>
      congrArg₂ (· * ·) ((shapeCast_1ab_ab_apply _ _ n m).trans (rd0_1 V c t p n m)) ?_)
    exact (mmW_apply _ _ m d).trans (Finset.sum_congr rfl fun k _ =>
      congrArg₂ (· * ·) ((shapeCast_1ab_ab_apply _ _ m k).trans (rd0_0 V c t p m k)) (rd0_2 V c t k d))
  · exact (broadcastTo_1b_ab_apply _ _ n d).trans ((congrFun (shapeCast_self _ _) _).trans (rd0_3 V c t d))

/-- Two batch stores of payload f leave, at (p, n, d), batch p's payload at (0, n, d). -/
private theorem aft_apply {M : ℕ} {e : EltTy} (f : Vec Ideal S1x1024x256 .f32 → Vec Ideal S256x256 .f32 → Vec Ideal S1x1024x1024 .f32 → Vec Ideal S1x256 .f32 → Vec Ideal ⟨3, ![1, 1024, M]⟩ e)
    (x0 : Vec Ideal S2x1024x256 .f32) (x1 : Vec Ideal S2x1024x1024 .f32) (x2 : Vec Ideal S256x256 .f32) (x3 : Vec Ideal S1x256 .f32) (n : Fin 1024) (d : Fin M) : ∀ p : Fin 2,
    View.canon (Val := Elt Ideal) [pc0 f x0 x1 x2 x3 1, pc0 f x0 x1 x2 x3 0] (ix3 p n d) = (pc0 f x0 x1 x2 x3 p).2 (ix3 0 n d) :=
  Fin.forall_fin_two.2 (canon_slab (pc0 f x0 x1 x2 x3 1).2 (pc0 f x0 x1 x2 x3 0).2 n d)

private theorem emb0_4 (p : Fin 2) (n : Fin 1024) (d : Fin 256) :
    ((cfg0.win 4).blk t).view.emb (ix3 p n d) = (ix3 (bat t p) n d : S16x1024x256.Idx) := by
  obtain ⟨-, -, -, -, ⟨e0, e1, e2⟩, -⟩ := idx_facts0 t
  funext a; apply Fin.ext
  match a with
  | ⟨0, _⟩ => show win0_4.index t (0 : Fin 3) * 2 + 1 * p.val = 2 * t.val + p.val; omega
  | ⟨1, _⟩ => show win0_4.index t (1 : Fin 3) * 1024 + 1 * n.val = n.val; omega
  | ⟨2, _⟩ => show win0_4.index t (2 : Fin 3) * 256 + 1 * d.val = d.val; omega

private theorem emb0_5 (p : Fin 2) (n : Fin 1024) (z : Fin 1) :
    ((cfg0.win 5).blk t).view.emb (ix3 p n z) = (ix3 (bat t p) n z : S16x1024x1.Idx) := by
  obtain ⟨-, -, -, -, -, ⟨e0, e1, e2⟩, -⟩ := idx_facts0 t
  funext a; apply Fin.ext
  match a with
  | ⟨0, _⟩ => show win0_5.index t (0 : Fin 3) * 2 + 1 * p.val = 2 * t.val + p.val; omega
  | ⟨1, _⟩ => show win0_5.index t (1 : Fin 3) * 1024 + 1 * n.val = n.val; omega
  | ⟨2, _⟩ => show win0_5.index t (2 : Fin 3) * 1 + 1 * z.val = z.val; omega

private theorem emb0_6 (p : Fin 2) (n : Fin 1024) (z : Fin 1) :
    ((cfg0.win 6).blk t).view.emb (ix3 p n z) = (ix3 (bat t p) n z : S16x1024x1.Idx) := by
  obtain ⟨-, -, -, -, -, -, ⟨e0, e1, e2⟩⟩ := idx_facts0 t
  funext a; apply Fin.ext
  match a with
  | ⟨0, _⟩ => show win0_6.index t (0 : Fin 3) * 2 + 1 * p.val = 2 * t.val + p.val; omega
  | ⟨1, _⟩ => show win0_6.index t (1 : Fin 3) * 1024 + 1 * n.val = n.val; omega
  | ⟨2, _⟩ => show win0_6.index t (2 : Fin 3) * 1 + 1 * z.val = z.val; omega

/-- Batch b is slot b mod 2 of point b / 2. -/
private theorem bat_split (b : Fin 16) : ∃ (t : Fin cfg0.N) (p : Fin 2), bat t p = b :=
  ⟨⟨b.val / 2, by show _ < grid0.N; have := N_0; omega⟩, ⟨b.val % 2, by omega⟩, Fin.ext (by show 2 * (b.val / 2) + b.val % 2 = b.val; omega)⟩

/-- An array read by plain coordinates. -/
private def arr3 {M : ℕ} (g : Fin 16 → Fin 1024 → Fin M → EReal) : (⟨3, ![16, 1024, M]⟩ : Shape).Idx → EReal := fun j => g (j 0) (j 1) (j 2)

/-- What point t writes back to each output array is block t of the layer, of its row sums and of the row sums of its squares. -/
private theorem flushed0_4 :
    (dat0 (F := Ideal) V c).flushed 4 t = ((cfg0.win 4).blk t).view.read (Elt Ideal) (arr3 (y1Of V c)) := by
  funext j
  obtain ⟨p, n, d, rfl⟩ : ∃ (p : Fin 2) (n : Fin 1024) (d : Fin 256), j = ix3 p n d := ⟨j 0, j 1, j 2, eq_ix3 j⟩
  show _ = arr3 (y1Of V c) (((cfg0.win 4).blk t).view.emb (ix3 p n d))
  rw [emb0_4]
  dsimp only [Dat.flushed, Window.cut, dat0, aft0]
  exact (aft_apply _ _ _ _ _ n d p).trans ((shapeCast_ab_1ab_apply _ _ 0 n d).trans (pay1_blk V c t p n d))

private theorem flushed0_5 :
    (dat0 (F := Ideal) V c).flushed 5 t = ((cfg0.win 5).blk t).view.read (Elt Ideal) (arr3 (fun b n _ => Cert.Spec.rowSum (y1Of V c) b n)) := by
  funext j
  obtain ⟨p, n, z, rfl⟩ : ∃ (p : Fin 2) (n : Fin 1024) (z : Fin 1), j = ix3 p n z := ⟨j 0, j 1, j 2, eq_ix3 j⟩
  show _ = arr3 (fun b n _ => Cert.Spec.rowSum (y1Of V c) b n) (((cfg0.win 5).blk t).view.emb (ix3 p n z))
  rw [emb0_5]
  dsimp only [Dat.flushed, Window.cut, dat0, aft0]
  exact (aft_apply _ _ _ _ _ n z p).trans ((shapeCast_ab_1ab_apply _ _ 0 n z).trans ((shapeCast_a_a1_apply _ _ n z).trans ((laneSum_apply _ n).trans (Finset.sum_congr rfl fun d _ => pay1_blk V c t p n d))))

private theorem flushed0_6 :
    (dat0 (F := Ideal) V c).flushed 6 t = ((cfg0.win 6).blk t).view.read (Elt Ideal) (arr3 (fun b n _ => Cert.Spec.rowSq (y1Of V c) b n)) := by
  funext j
  obtain ⟨p, n, z, rfl⟩ : ∃ (p : Fin 2) (n : Fin 1024) (z : Fin 1), j = ix3 p n z := ⟨j 0, j 1, j 2, eq_ix3 j⟩
  show _ = arr3 (fun b n _ => Cert.Spec.rowSq (y1Of V c) b n) (((cfg0.win 6).blk t).view.emb (ix3 p n z))
  rw [emb0_6]
  dsimp only [Dat.flushed, Window.cut, dat0, aft0]
  refine (aft_apply _ _ _ _ _ n z p).trans ((shapeCast_ab_1ab_apply _ _ 0 n z).trans ((shapeCast_a_a1_apply _ _ n z).trans ((laneSum_apply _ n).trans ?_)))
  exact Finset.sum_congr rfl fun d _ => congrArg₂ (· * ·) (pay1_blk V c t p n d) (pay1_blk V c t p n d)

/-- Every index of an output array lies in the block of the point that holds its batch. -/
private theorem covered0_4 (i : S16x1024x256.Idx) : ∃ t : Fin cfg0.N, (cfg0.win 4).flush t = true ∧ i ∈ ((cfg0.win 4).blk t).view.set := by
  obtain ⟨b, n, d, rfl⟩ : ∃ (b : Fin 16) (n : Fin 1024) (d : Fin 256), i = ix3 b n d := ⟨i 0, i 1, i 2, eq_ix3 i⟩
  obtain ⟨t, p, rfl⟩ := bat_split b
  refine ⟨t, flush0_4 t, ?_⟩
  rw [← emb0_4]
  exact View.emb_mem_set _ _
private theorem covered0_5 (i : S16x1024x1.Idx) : ∃ t : Fin cfg0.N, (cfg0.win 5).flush t = true ∧ i ∈ ((cfg0.win 5).blk t).view.set := by
  obtain ⟨b, n, d, rfl⟩ : ∃ (b : Fin 16) (n : Fin 1024) (d : Fin 1), i = ix3 b n d := ⟨i 0, i 1, i 2, eq_ix3 i⟩
  obtain ⟨t, p, rfl⟩ := bat_split b
  refine ⟨t, flush0_5 t, ?_⟩
  rw [← emb0_5]
  exact View.emb_mem_set _ _
private theorem covered0_6 (i : S16x1024x1.Idx) : ∃ t : Fin cfg0.N, (cfg0.win 6).flush t = true ∧ i ∈ ((cfg0.win 6).blk t).view.set := by
  obtain ⟨b, n, d, rfl⟩ : ∃ (b : Fin 16) (n : Fin 1024) (d : Fin 1), i = ix3 b n d := ⟨i 0, i 1, i 2, eq_ix3 i⟩
  obtain ⟨t, p, rfl⟩ := bat_split b
  refine ⟨t, flush0_6 t, ?_⟩
  rw [← emb0_6]
  exact View.emb_mem_set _ _

theorem y1_apply (c : Dev nD) (b : Fin 16) (n : Fin 1024) (d : Fin 256) :
    ((dat0 (F := Ideal) V c).arrAt 4 cfg0.N : S16x1024x256.Idx → EReal) (ix3 b n d)
      = Cert.Spec.conv (xOf V c) (adjOf V c) (w1Of V c) (b1Of V c) b n d :=
  congrFun ((dat0 (F := Ideal) V c).arrAt_eq_of_cover 4 _ (fun t _ => flushed0_4 V c t) covered0_4) (ix3 b n d)

theorem s1_apply (c : Dev nD) (b : Fin 16) (n : Fin 1024) :
    ((dat0 (F := Ideal) V c).arrAt 5 cfg0.N : S16x1024x1.Idx → EReal) (ix3 b n 0)
      = Cert.Spec.rowSum (Cert.Spec.conv (xOf V c) (adjOf V c) (w1Of V c) (b1Of V c)) b n :=
  congrFun ((dat0 (F := Ideal) V c).arrAt_eq_of_cover 5 _ (fun t _ => flushed0_5 V c t) covered0_5) (ix3 b n 0)

theorem q1_apply (c : Dev nD) (b : Fin 16) (n : Fin 1024) :
    ((dat0 (F := Ideal) V c).arrAt 6 cfg0.N : S16x1024x1.Idx → EReal) (ix3 b n 0)
      = Cert.Spec.rowSq (Cert.Spec.conv (xOf V c) (adjOf V c) (w1Of V c) (b1Of V c)) b n :=
  congrFun ((dat0 (F := Ideal) V c).arrAt_eq_of_cover 6 _ (fun t _ => flushed0_6 V c t) covered0_6) (ix3 b n 0)

end Val0

end Cert.KernelIdeal.Hand

end
-- ==== Proof.Pay1.lean ====
import proofs.«127664_g88656714924069_cont_sun_m_1396_9_alg».proof.Proof.R1
import proofs.«127664_g88656714924069_cont_sun_m_1396_9_alg».proof.Proof.Spec
import proofs.«127664_g88656714924069_cont_sun_m_1396_9_alg».proof.Proof.Reads
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Idealize.ShloMosaic Idealize.ShloMosaic.ValueIdx Cert.KernelIdeal Cert.KernelIdeal.Gen
open scoped BigOperators

theorem ld_r1Q (x : Vec Ideal S16x1024x1 .f32) : View.ld x r1Q = x :=
  View.ld_unit_zero (funext fun a => by fin_cases a <;> rfl) _ x

section Layer
variable (y : Vec Ideal S1x1024x256 .bf16) (a c : Vec Ideal S1024x1 .f32) (W : Vec Ideal S256x256 .f32)
  (adj : Vec Ideal S1x1024x1024 .f32) (b : Vec Ideal S1x256 .f32) (n : Fin 1024)

/-- relu(adj · ((y · a + c) · W) + b) at row n and channel d, for one batch's blocks. -/
def convRow (d : Fin 256) : EReal :=
  max ((∑ m : Fin 1024, adj (ix3 0 n m) * ∑ k : Fin 256, (y (ix3 0 m k) * a (ix2 m 0) + c (ix2 m 0)) * W (ix2 k d)) + b (ix2 0 d)) 0

theorem pay7_apply (d : Fin 256) : k1_pay7 (F := Ideal) y a c W adj b (ix2 n d) = convRow y a c W adj b n d := by
  unfold k1_pay7 convRow
  rw [maximumf_apply, broadcast_apply, scalar_ofBits, Ideal.ofBits_zero_f32, addf_apply, mmA_apply,
    broadcastTo_1b_ab_apply, shapeCast_self]
  refine congrArg₂ max (congrArg₂ (· + ·) (Finset.sum_congr rfl fun m _ => ?_) rfl) rfl
  rw [shapeCast_1ab_ab_apply, mmW_apply]
  refine congrArg₂ (· * ·) rfl (Finset.sum_congr rfl fun k _ => ?_)
  rw [addf_apply, mulf_apply, extf_apply, shapeCast_1ab_ab_apply, broadcastTo_a1_ab_apply, broadcastTo_a1_ab_apply]

theorem pay8_apply (d : Fin 256) : k1_pay8 (F := Ideal) y a c W adj b (ix3 0 n d) = convRow y a c W adj b n d := by
  unfold k1_pay8
  rw [shapeCast_ab_1ab_apply, truncf_apply, pay7_apply]

theorem pay10_9_apply : k1_pay10 (F := Ideal) (k1_pay9 y a c W adj b) (ix3 0 n 0) = ∑ d : Fin 256, convRow y a c W adj b n d := by
  unfold k1_pay10 k1_pay9
  dsimp only
  rw [shapeCast_ab_1ab_apply, shapeCast_a_a1_apply, laneSum_apply]
  exact Finset.sum_congr rfl fun d _ => pay7_apply y a c W adj b n d

theorem pay11_7_apply : k1_pay11 (F := Ideal) (k1_pay7 y a c W adj b) (ix3 0 n 0)
    = ∑ d : Fin 256, convRow y a c W adj b n d * convRow y a c W adj b n d := by
  unfold k1_pay11
  dsimp only
  rw [shapeCast_ab_1ab_apply, shapeCast_a_a1_apply, laneSum_apply]
  exact Finset.sum_congr rfl fun d _ => by rw [mulf_apply, pay7_apply]

/-- The second batch's payloads are the same terms as the first's. -/
theorem pay13_apply (d : Fin 256) : k1_pay13 (F := Ideal) y a c W adj b (ix3 0 n d) = convRow y a c W adj b n d :=
  pay8_apply y a c W adj b n d
theorem pay1_14_apply : k1_pay1 (F := Ideal) (k1_pay14 y a c W adj b) (ix3 0 n 0) = ∑ d : Fin 256, convRow y a c W adj b n d :=
  pay10_9_apply y a c W adj b n
theorem pay2_12_apply : k1_pay2 (F := Ideal) (k1_pay12 y a c W adj b) (ix3 0 n 0)
    = ∑ d : Fin 256, convRow y a c W adj b n d * convRow y a c W adj b n d :=
  pay11_7_apply y a c W adj b n

end Layer

section Stats
variable (s q : Vec Ideal S16x1024x1 .f32) (g be : Vec Ideal S1024x1 .f32) (n : Fin 1024)

theorem pay3_apply : k1_pay3 (F := Ideal) s (ix2 n 0) = Cert.Spec.meanK (fun b n => s (ix3 b n 0)) n := by
  unfold k1_pay3
  dsimp only
  rw [mulf_apply, broadcast_apply, scalar_ofBits, shapeCast_self, batchSum_apply]
  rfl

theorem pay4_apply : k1_pay4 (F := Ideal) s q g (ix2 n 0)
    = Cert.Spec.scaleK (fun b n => s (ix3 b n 0)) (fun b n => q (ix3 b n 0)) (fun n => g (ix2 n 0)) n := by
  unfold k1_pay4
  dsimp only
  rw [mulf_apply, rsqrt_apply, addf_apply, subf_apply, mulf_apply, mulf_apply, pay3_apply, broadcast_apply,
    broadcast_apply, scalar_ofBits, scalar_ofBits, shapeCast_self, shapeCast_self, batchSum_apply]
  rfl

theorem aV1_apply : aV1 (F := Ideal) s q g (ix2 n 0)
    = Cert.Spec.scaleK (fun b n => s (ix3 b n 0)) (fun b n => q (ix3 b n 0)) (fun n => g (ix2 n 0)) n := by
  unfold aV1 k1_pay5
  rw [ld_r1Q, ld_r1Q, ld_r1N, shapeCast_self, pay4_apply]

theorem cV1_apply : cV1 (F := Ideal) s q g be (ix2 n 0)
    = Cert.Spec.shiftK (fun b n => s (ix3 b n 0)) (fun b n => q (ix3 b n 0)) (fun n => g (ix2 n 0))
        (fun n => be (ix2 n 0)) n := by
  unfold cV1 k1_pay6
  rw [ld_r1Q, ld_r1Q, ld_r1N, ld_r1N, shapeCast_self, subf_apply, mulf_apply, shapeCast_self, pay3_apply, pay4_apply]
  rfl

end Stats

end Cert.KernelIdeal.Hand

end
-- ==== Proof.Val1.lean ====
import proofs.«127664_g88656714924069_cont_sun_m_1396_9_alg».proof.Proof.R1
import proofs.«127664_g88656714924069_cont_sun_m_1396_9_alg».proof.Proof.Pay1
import proofs.«127664_g88656714924069_cont_sun_m_1396_9_alg».proof.Proof.Spec
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)
open scoped BigOperators

section Readers
variable (V : (c : Dev nD) → (b : Ref sig .tc) → Buf (Elt Ideal) ((c : Thread nD τ).loc b))

def y1Of (c : Dev nD) : Cert.Spec.Act := fun b n d => (V c main_call0_v1_0 : S16x1024x256.Idx → EReal) (ix3 b n d)
def adj1Of (c : Dev nD) : Cert.Spec.Adj := fun b n m => (V c main_arg1 : S16x1024x1024.Idx → EReal) (ix3 b n m)
def w2Of (c : Dev nD) : Cert.Spec.Wt := fun k d => (V c main_arg4 : S256x256.Idx → EReal) (ix2 k d)
def b2Of (c : Dev nD) : Cert.Spec.Chan := fun d => (V c main_call0_v2 : S1x256.Idx → EReal) (ix2 0 d)
def s1Of (c : Dev nD) : Cert.Spec.Stat := fun b n => (V c main_call0_v1_1 : S16x1024x1.Idx → EReal) (ix3 b n 0)
def q1Of (c : Dev nD) : Cert.Spec.Stat := fun b n => (V c main_call0_v1_2 : S16x1024x1.Idx → EReal) (ix3 b n 0)
def g1Of (c : Dev nD) : Cert.Spec.Node := fun n => (V c main_call0_v3 : S1024x1.Idx → EReal) (ix2 n 0)
def be1Of (c : Dev nD) : Cert.Spec.Node := fun n => (V c main_call0_v4 : S1024x1.Idx → EReal) (ix2 n 0)
abbrev h1Of (c : Dev nD) : Cert.Spec.Act := Cert.Spec.affineK (y1Of V c) (s1Of V c) (q1Of V c) (g1Of V c) (be1Of V c)
end Readers

namespace Val1

theorem hzero1 : (![0, 0] : Fin 2 → Nat) = fun _ => 0 := funext fun a => by fin_cases a <;> rfl

-- (b, n, d) is (p, n, d) moved by o along the leading axis when b = o + p.
theorem ix3_mv {n0 n0' n1 n2 o : ℕ} {b : Fin n0} {p : Fin n0'} (hb : b.val = o + p.val) (n : Fin n1) (d : Fin n2) :
    ∀ a : Fin 3, (if a.val = 0 then o else 0) + (ix3 p n d a).val = (ix3 b n d a).val
  | ⟨0, _⟩ => hb.symm
  | ⟨1, _⟩ => Nat.zero_add _
  | ⟨2, _⟩ => Nat.zero_add _

theorem forall_ix3 {n0 n1 n2 : ℕ} {P : (⟨3, ![n0, n1, n2]⟩ : Shape).Idx → Prop} (h : ∀ p n d, P (ix3 p n d)) (j) : P j := eq_ix3 j ▸ h _ _ _

-- Activations and statistics as functions of the multi-index.
abbrev act (y : Cert.Spec.Act) : S16x1024x256.Idx → EReal := fun i => y (i 0) (i 1) (i 2)
abbrev stat (s : Cert.Spec.Stat) : S16x1024x1.Idx → EReal := fun i => s (i 0) (i 1)

section Blocks
variable (x0 : Vec Ideal S2x1024x256 .bf16) (x1 : Vec Ideal S2x1024x1024 .f32) (x2 : Vec Ideal S256x256 .f32) (x3 : Vec Ideal S1x256 .f32) (a c : Vec Ideal S1024x1 .f32)

-- The layer's row over the entries of batch p.
def rowAt (p : Fin 2) : Fin 1024 → Fin 256 → EReal :=
  convRow (View.ld x0 (slab p)) (View.ld a r1N) (View.ld c r1N) (View.ld x2 r1W) (View.ld x1 (slab p)) (View.ld x3 r1B)

-- At batch p and row n the three outputs are the layer's row, its sum and the sum of its squares.
theorem out1_apply (p : Fin 2) (n : Fin 1024) {R : Fin 256 → EReal} (hR : rowAt x0 x1 x2 x3 a c p n = R) :
    (∀ d, out1_8 x0 x1 x2 x3 a c (ix3 p n d) = R d) ∧ (∀ u, out1_9 x0 x1 x2 x3 a c (ix3 p n u) = ∑ d, R d)
      ∧ ∀ u, out1_10 x0 x1 x2 x3 a c (ix3 p n u) = ∑ d, R d * R d := by
  subst hR
  unfold out1_8 out1_9 out1_10 rowAt
  match p with
  | ⟨0, _⟩ => exact ⟨fun d => (canon_slab _ _ n d).1.trans (pay8_apply _ _ _ _ _ _ n d),
      fun u => Fin.fin_one_eq_zero u ▸ (canon_slab _ _ n 0).1.trans (pay10_9_apply _ _ _ _ _ _ n),
      fun u => Fin.fin_one_eq_zero u ▸ (canon_slab _ _ n 0).1.trans (pay11_7_apply _ _ _ _ _ _ n)⟩
  | ⟨1, _⟩ => exact ⟨fun d => (canon_slab _ _ n d).2.trans (pay13_apply _ _ _ _ _ _ n d),
      fun u => Fin.fin_one_eq_zero u ▸ (canon_slab _ _ n 0).2.trans (pay1_14_apply _ _ _ _ _ _ n),
      fun u => Fin.fin_one_eq_zero u ▸ (canon_slab _ _ n 0).2.trans (pay2_12_apply _ _ _ _ _ _ n)⟩
end Blocks

-- The layer's row depends on its operands only through the entries it sums over.
theorem convRow_eq (y : Vec Ideal S1x1024x256 .bf16) (a c : Vec Ideal S1024x1 .f32) (W : Vec Ideal S256x256 .f32) (adj : Vec Ideal S1x1024x1024 .f32)
    (b : Vec Ideal S1x256 .f32) (n : Fin 1024) (d : Fin 256) (Y : Fin 1024 → Fin 256 → EReal) (A : Fin 1024 → EReal) (Wd : Fin 256 → EReal) (B : EReal)
    (al ga : Fin 1024 → EReal) (h0 : ∀ m k, y (ix3 0 m k) = Y m k) (h1 : ∀ m, adj (ix3 0 n m) = A m) (h2 : ∀ k, W (ix2 k d) = Wd k)
    (h3 : b (ix2 0 d) = B) (ha : ∀ m, a (ix2 m 0) = al m) (hc : ∀ m, c (ix2 m 0) = ga m) :
    convRow y a c W adj b n d = max ((∑ m : Fin 1024, A m * ∑ k : Fin 256, (Y m k * al m + ga m) * Wd k) + B) 0 := by
  unfold convRow
  simp only [h0, h1, h2, h3, ha, hc]

theorem mv1 : ∀ w : Fin cfg1.W, w.val < 2 ∨ 8 ≤ w.val → ∀ (t : Fin cfg1.N) (a : Fin (cfg1.win w).shape.rank),
    (cfg1.win w).index t a * (cfg1.win w).size a = if a.val = 0 then 2 * t.val else 0 := by decide +kernel
theorem res1 : ∀ w : Fin cfg1.W, 2 ≤ w.val → w.val < 8 → ∀ (t : Fin cfg1.N) (a : Fin (cfg1.win w).shape.rank),
    (cfg1.win w).index t a = 0 := by decide +kernel

-- Point t's part of an array cut two batches a point starts at batch 2t;
theorem emb_mv (w : Fin cfg1.W) (hw : w.val < 2 ∨ 8 ≤ w.val) (t : Fin cfg1.N) (y : ((cfg1.win w).xblock (cfg1.grid.coords t)).Idx)
    (i : (cfg1.win w).shape.Idx) (h : ∀ a, (if a.val = 0 then 2 * t.val else 0) + (y a).val = (i a).val) : ((cfg1.win w).rect t).emb y = i :=
  funext fun a => Fin.ext (by rw [Pipeline.Window.rect_emb_val, mv1 w hw, h])
-- an array taken whole is read entry for entry.
theorem emb_res (w : Fin cfg1.W) (h2 : 2 ≤ w.val) (h8 : w.val < 8) (t : Fin cfg1.N) (y : ((cfg1.win w).xblock (cfg1.grid.coords t)).Idx)
    (i : (cfg1.win w).shape.Idx) (h : ∀ a, (y a).val = (i a).val) : ((cfg1.win w).rect t).emb y = i :=
  funext fun a => Fin.ext (((cfg1.win w).rect_emb_val_of_index_zero t a (res1 w h2 h8 t a) y).trans (h a))
section Region1
variable (V : (c : Dev nD) → (b : Ref sig .tc) → Buf (Elt Ideal) ((c : Thread nD τ).loc b))

theorem iblk1_0 (c : Dev nD) (t : Fin cfg1.N) {p : Fin 2} {b : Fin 16} (hb : b.val = 2 * t.val + p.val) (m : Fin 1024) (k : Fin 256) :
    (iblk1 V c 0 t : Vec Ideal S2x1024x256 .bf16) (ix3 p m k) = y1Of V c b m k :=
  congrArg (V c main_call0_v1_0 : S16x1024x256.Idx → EReal) (emb_mv 0 (by decide) t _ _ (ix3_mv hb m k))
theorem iblk1_1 (c : Dev nD) (t : Fin cfg1.N) {p : Fin 2} {b : Fin 16} (hb : b.val = 2 * t.val + p.val) (n m : Fin 1024) :
    (iblk1 V c 1 t : Vec Ideal S2x1024x1024 .f32) (ix3 p n m) = adj1Of V c b n m :=
  congrArg (V c main_arg1 : S16x1024x1024.Idx → EReal) (emb_mv 1 (by decide) t _ _ (ix3_mv hb n m))
theorem iblk1_2 (c : Dev nD) (t : Fin cfg1.N) : iblk1 V c 2 t = V c main_arg4 :=
  funext fun y => congrArg (V c main_arg4 : S256x256.Idx → EReal) (emb_res 2 (by decide) (by decide) t y y fun _ => rfl)
theorem iblk1_3 (c : Dev nD) (t : Fin cfg1.N) : iblk1 V c 3 t = V c main_call0_v2 :=
  funext fun y => congrArg (V c main_call0_v2 : S1x256.Idx → EReal) (emb_res 3 (by decide) (by decide) t y y fun _ => rfl)
theorem iblk1_4 (c : Dev nD) (t : Fin cfg1.N) : iblk1 V c 4 t = V c main_call0_v1_1 :=
  funext fun y => congrArg (V c main_call0_v1_1 : S16x1024x1.Idx → EReal) (emb_res 4 (by decide) (by decide) t y y fun _ => rfl)
theorem iblk1_5 (c : Dev nD) (t : Fin cfg1.N) : iblk1 V c 5 t = V c main_call0_v1_2 :=
  funext fun y => congrArg (V c main_call0_v1_2 : S16x1024x1.Idx → EReal) (emb_res 5 (by decide) (by decide) t y y fun _ => rfl)
theorem iblk1_6 (c : Dev nD) (t : Fin cfg1.N) : iblk1 V c 6 t = V c main_call0_v3 :=
  funext fun y => congrArg (V c main_call0_v3 : S1024x1.Idx → EReal) (emb_res 6 (by decide) (by decide) t y y fun _ => rfl)
theorem iblk1_7 (c : Dev nD) (t : Fin cfg1.N) : iblk1 V c 7 t = V c main_call0_v4 :=
  funext fun y => congrArg (V c main_call0_v4 : S1024x1.Idx → EReal) (emb_res 7 (by decide) (by decide) t y y fun _ => rfl)

-- a = γ · rsqrt(var + ε) and c = β − mean · a, from the first layer's row sums and sums of squares.
theorem scA1_apply (c : Dev nD) (m : Fin 1024) :
    (scA1 V c : Vec Ideal S1024x1 .f32) (ix2 m (0 : Fin 1)) = Cert.Spec.scaleK (s1Of V c) (q1Of V c) (g1Of V c) m := by
  unfold scA1
  rw [iblk1_4, iblk1_5, iblk1_6]
  exact aV1_apply _ _ _ m
theorem scC1_apply (c : Dev nD) (m : Fin 1024) :
    (scC1 V c : Vec Ideal S1024x1 .f32) (ix2 m (0 : Fin 1)) = Cert.Spec.shiftK (s1Of V c) (q1Of V c) (g1Of V c) (be1Of V c) m := by
  unfold scC1
  rw [iblk1_4, iblk1_5, iblk1_6, iblk1_7]
  exact cV1_apply _ _ _ _ m

-- Batch p at point t is batch 2t + p of relu(adj · (h₁ · W₂) + b₂), h₁ the normalised first layer.
theorem rowAt_iblk (c : Dev nD) (t : Fin cfg1.N) {p : Fin 2} {b : Fin 16} (hb : b.val = 2 * t.val + p.val) (n : Fin 1024) :
    rowAt (iblk1 V c 0 t) (iblk1 V c 1 t) (iblk1 V c 2 t) (iblk1 V c 3 t) (scA1 V c) (scC1 V c) p n
      = Cert.Spec.conv (h1Of V c) (adj1Of V c) (w2Of V c) (b2Of V c) b n :=
  funext fun d => convRow_eq _ _ _ _ _ _ n d (y1Of V c b) (adj1Of V c b n) (fun k => w2Of V c k d) (b2Of V c d)
    (Cert.Spec.scaleK (s1Of V c) (q1Of V c) (g1Of V c)) (Cert.Spec.shiftK (s1Of V c) (q1Of V c) (g1Of V c) (be1Of V c))
    (fun m k => (congrArg (iblk1 V c 0 t) (slab_idx p m k)).trans (iblk1_0 V c t hb m k))
    (fun m => (congrArg (iblk1 V c 1 t) (slab_idx p n m)).trans (iblk1_1 V c t hb n m))
    (fun k => congrFun ((View.ld_unit_zero hzero1 _ _).trans (iblk1_2 V c t)) (ix2 k d))
    (congrFun ((View.ld_unit_zero hzero1 _ _).trans (iblk1_3 V c t)) (ix2 0 d))
    (fun m => (congrFun (View.ld_unit_zero hzero1 _ _) _).trans (scA1_apply V c m))
    (fun m => (congrFun (View.ld_unit_zero hzero1 _ _) _).trans (scC1_apply V c m))

-- Batch b is the batch of parity b % 2 at point b / 2.
theorem half (b : Fin 16) : ∃ (t : Fin cfg1.N) (p : Fin 2), b.val = 2 * t.val + p.val :=
  ⟨⟨b.val / 2, by have := b.isLt; have hN : cfg1.N = 8 := N_1; omega⟩, ⟨b.val % 2, Nat.mod_lt _ (by decide)⟩, (Nat.div_add_mod b.val 2).symm⟩
theorem batch_lt (t : Fin cfg1.N) (p : Fin 2) : 2 * t.val + p.val < 16 := by have := t.isLt; have hN : cfg1.N = 8 := N_1; omega

end Region1

end Val1

open Val1

section Region1Value
variable (V : (c : Dev nD) → (b : Ref sig .tc) → Buf (Elt Ideal) ((c : Thread nD τ).loc b))

-- The second layer before its normalisation, its row sums and the row sums of its squares.
theorem y2_apply (c : Dev nD) (b : Fin 16) (n : Fin 1024) (d : Fin 256) :
    ((dat1 (F := Ideal) V c).arrAt 8 cfg1.N : S16x1024x256.Idx → EReal) (ix3 b n d) = Cert.Spec.conv (h1Of V c) (adj1Of V c) (w2Of V c) (b2Of V c) b n d := by
  obtain ⟨t, p, hb⟩ := half b
  refine (dat1 V c).arrAt_apply_of_mem 8 (act (Cert.Spec.conv (h1Of V c) (adj1Of V c) (w2Of V c) (b2Of V c))) (fun t _ => ?_) cfg1.N t (ix3 b n d) t.isLt (flush1_8 _)
    (emb_mv 8 (by decide) t (ix3 p n d) _ (ix3_mv hb n d) ▸ View.emb_mem_set _ _)
  show (cfg1.win 8).cut _ ((dat1 V c).after 8 t) = _
  rw [after1_8]
  refine funext (forall_ix3 fun p n u => ?_)
  show out1_8 (F := Ideal) _ _ _ _ _ _ _ = act (Cert.Spec.conv (h1Of V c) (adj1Of V c) (w2Of V c) (b2Of V c)) (((cfg1.win 8).rect t).emb _)
  rw [emb_mv 8 (by decide) t _ _ (ix3_mv (b := ⟨_, batch_lt t p⟩) rfl n u)]
  exact (out1_apply _ _ _ _ _ _ p n (rowAt_iblk V c t (b := ⟨_, batch_lt t p⟩) rfl n)).1 u

theorem s2_apply (c : Dev nD) (b : Fin 16) (n : Fin 1024) :
    ((dat1 (F := Ideal) V c).arrAt 9 cfg1.N : S16x1024x1.Idx → EReal) (ix3 b n 0) = Cert.Spec.rowSum (Cert.Spec.conv (h1Of V c) (adj1Of V c) (w2Of V c) (b2Of V c)) b n := by
  obtain ⟨t, p, hb⟩ := half b
  refine (dat1 V c).arrAt_apply_of_mem 9 (stat (Cert.Spec.rowSum (Cert.Spec.conv (h1Of V c) (adj1Of V c) (w2Of V c) (b2Of V c)))) (fun t _ => ?_) cfg1.N t (ix3 b n 0) t.isLt (flush1_9 _)
    (emb_mv 9 (by decide) t (ix3 p n 0) _ (ix3_mv hb n 0) ▸ View.emb_mem_set _ _)
  show (cfg1.win 9).cut _ ((dat1 V c).after 9 t) = _
  rw [after1_9]
  refine funext (forall_ix3 fun p n u => ?_)
  show out1_9 (F := Ideal) _ _ _ _ _ _ _ = stat (Cert.Spec.rowSum (Cert.Spec.conv (h1Of V c) (adj1Of V c) (w2Of V c) (b2Of V c))) (((cfg1.win 9).rect t).emb _)
  rw [emb_mv 9 (by decide) t _ _ (ix3_mv (b := ⟨_, batch_lt t p⟩) rfl n u)]
  exact (out1_apply _ _ _ _ _ _ p n (rowAt_iblk V c t (b := ⟨_, batch_lt t p⟩) rfl n)).2.1 u

theorem q2_apply (c : Dev nD) (b : Fin 16) (n : Fin 1024) :
    ((dat1 (F := Ideal) V c).arrAt 10 cfg1.N : S16x1024x1.Idx → EReal) (ix3 b n 0) = Cert.Spec.rowSq (Cert.Spec.conv (h1Of V c) (adj1Of V c) (w2Of V c) (b2Of V c)) b n := by
  obtain ⟨t, p, hb⟩ := half b
  refine (dat1 V c).arrAt_apply_of_mem 10 (stat (Cert.Spec.rowSq (Cert.Spec.conv (h1Of V c) (adj1Of V c) (w2Of V c) (b2Of V c)))) (fun t _ => ?_) cfg1.N t (ix3 b n 0) t.isLt (flush1_10 _)
    (emb_mv 10 (by decide) t (ix3 p n 0) _ (ix3_mv hb n 0) ▸ View.emb_mem_set _ _)
  show (cfg1.win 10).cut _ ((dat1 V c).after 10 t) = _
  rw [after1_10]
  refine funext (forall_ix3 fun p n u => ?_)
  show out1_10 (F := Ideal) _ _ _ _ _ _ _ = stat (Cert.Spec.rowSq (Cert.Spec.conv (h1Of V c) (adj1Of V c) (w2Of V c) (b2Of V c))) (((cfg1.win 10).rect t).emb _)
  rw [emb_mv 10 (by decide) t _ _ (ix3_mv (b := ⟨_, batch_lt t p⟩) rfl n u)]
  exact (out1_apply _ _ _ _ _ _ p n (rowAt_iblk V c t (b := ⟨_, batch_lt t p⟩) rfl n)).2.2 u

end Region1Value

end Cert.KernelIdeal.Hand

end
-- ==== Proof.Val2.lean ====
import proofs.«127664_g88656714924069_cont_sun_m_1396_9_alg».proof.Proof.R2
import proofs.«127664_g88656714924069_cont_sun_m_1396_9_alg».proof.Proof.Spec
import proofs.«127664_g88656714924069_cont_sun_m_1396_9_alg».proof.Proof.Reads

noncomputable section

namespace Cert.KernelIdeal.Hand

open Cert.KernelIdeal Cert.KernelIdeal.Gen
open Idealize.ShloMosaic Idealize.ShloMosaic.TcCoe
open Idealize.ShloMosaic.ValueIdx

section Val2
variable (V : (c : Dev nD) → (b : Ref sig .tc) → Buf (Elt Ideal) ((c : Thread nD τ).loc b))

def y2Of (c : Dev nD) : Cert.Spec.Act := fun b n d => (V c main_call0_v5_0 : S16x1024x256.Idx → EReal) (ix3 b n d)
def s2Of (c : Dev nD) : Cert.Spec.Stat := fun b n => (V c main_call0_v5_1 : S16x1024x1.Idx → EReal) (ix3 b n 0)
def q2Of (c : Dev nD) : Cert.Spec.Stat := fun b n => (V c main_call0_v5_2 : S16x1024x1.Idx → EReal) (ix3 b n 0)
def g2Of (c : Dev nD) : Cert.Spec.Node := fun n => (V c main_call0_v6 : S1024x1.Idx → EReal) (ix2 n 0)
def be2Of (c : Dev nD) : Cert.Spec.Node := fun n => (V c main_call0_v7 : S1024x1.Idx → EReal) (ix2 n 0)

/-- mean n = (Σ_b s b n) · 2⁻¹². -/
theorem k2_pay1_apply (s : Vec Ideal S16x1024x1 .f32) (n : Fin 1024) :
    k2_pay1 (F := Ideal) s (ix2 n 0) = Cert.Spec.meanK (fun b n => s (ix3 b n 0)) n := by
  unfold k2_pay1
  simp only [mulf_apply, broadcast_apply, shapeCast_self]
  rw [batchSum_apply]
  rfl

/-- a n = γ n · rsqrt(var n + ε). -/
theorem k2_pay2_apply (s q : Vec Ideal S16x1024x1 .f32) (g : Vec Ideal S1024x1 .f32) (n : Fin 1024) :
    k2_pay2 (F := Ideal) s q g (ix2 n 0) = Cert.Spec.scaleK (fun b n => s (ix3 b n 0)) (fun b n => q (ix3 b n 0)) (fun n => g (ix2 n 0)) n := by
  unfold k2_pay2
  simp only [mulf_apply, rsqrt_apply, subf_apply, addf_apply, broadcast_apply, shapeCast_self]
  rw [k2_pay1_apply, batchSum_apply]
  rfl

theorem iblk2_whole (c : Dev nD) :
    (iblk2 V c 1 t2_0 : Vec Ideal S16x1024x1 .f32) = (V c main_call0_v5_1 : S16x1024x1.Idx → EReal)
      ∧ (iblk2 V c 2 t2_0 : Vec Ideal S16x1024x1 .f32) = (V c main_call0_v5_2 : S16x1024x1.Idx → EReal)
      ∧ (iblk2 V c 3 t2_0 : Vec Ideal S1024x1 .f32) = (V c main_call0_v6 : S1024x1.Idx → EReal)
      ∧ (iblk2 V c 4 t2_0 : Vec Ideal S1024x1 .f32) = (V c main_call0_v7 : S1024x1.Idx → EReal) := by
  refine ⟨?_, ?_, ?_, ?_⟩ <;>
    exact Memref.read_access_unit_zero (Elt Ideal) _ (funext fun a => by fin_cases a <;> decide +kernel) (fun a => by fin_cases a <;> decide +kernel) _

theorem scA2_apply (c : Dev nD) (n : Fin 1024) :
    scA2 (F := Ideal) V c (ix2 n 0) = Cert.Spec.scaleK (s2Of V c) (q2Of V c) (g2Of V c) n := by
  obtain ⟨e1, e2, e3, -⟩ := iblk2_whole V c
  unfold scA2 aV2 k2_pay3
  rw [e1, e2, e3]
  simp only [View.ld_unit_zero (S := S16x1024x1) zero3, View.ld_unit_zero (S := S1024x1) zero2, shapeCast_self]
  exact k2_pay2_apply _ _ _ n

theorem scC2_apply (c : Dev nD) (n : Fin 1024) :
    scC2 (F := Ideal) V c (ix2 n 0) = Cert.Spec.shiftK (s2Of V c) (q2Of V c) (g2Of V c) (be2Of V c) n := by
  obtain ⟨e1, e2, e3, e4⟩ := iblk2_whole V c
  unfold scC2 cV2 k2_pay4
  rw [e1, e2, e3, e4]
  simp only [View.ld_unit_zero (S := S16x1024x1) zero3, View.ld_unit_zero (S := S1024x1) zero2, shapeCast_self, subf_apply, mulf_apply]
  rw [k2_pay1_apply, k2_pay2_apply]
  rfl

/-- A column broadcast along batches and lanes keeps its row's entry. -/
theorem colBroadcast2_apply (v : FVec Ideal S1024x1 .f32) (h1 : S1024x1.ShapeCasts S1x1024x1)
    (h2 : S1x1024x1.Broadcasts S4x1024x256) (p : Fin 4) (n : Fin 1024) (d : Fin 256) :
    broadcastTo S4x1024x256 (shapeCast S1x1024x1 v h1) h2 (ix3 p n d) = v (ix2 n 0) :=
  (broadcastTo_apply _ h2 (ix3 p n d) (ix3 (0 : Fin 1) n (0 : Fin 1)) fun a => by
    match a with
    | ⟨0, _⟩ => rfl
    | ⟨1, _⟩ => rfl
    | ⟨2, _⟩ => rfl).trans (shapeCast_ab_1ab_apply v h1 0 n 0)

/-- Entrywise the output is y · a + c, with a and c taken at the row. -/
theorem out2_5_apply (x0 : Vec Ideal S4x1024x256 .bf16) (a c : Vec Ideal S1024x1 .f32) (p : Fin 4) (n : Fin 1024) (d : Fin 256) :
    out2_5 (F := Ideal) x0 a c (ix3 p n d) = x0 (ix3 p n d) * a (ix2 n 0) + c (ix2 n 0) := by
  unfold out2_5 k2_pay5
  rw [View.canon_unit_zero zero3]
  simp only [View.ld_unit_zero (S := S4x1024x256) zero3, View.ld_unit_zero (S := S1024x1) zero2, addf_apply, mulf_apply, extf_apply, shapeCast_self]
  rw [colBroadcast2_apply, colBroadcast2_apply]

def outFn2 (c : Dev nD) : S16x1024x256.Idx → EReal :=
  fun i => Cert.Spec.affineK (y2Of V c) (s2Of V c) (q2Of V c) (g2Of V c) (be2Of V c) (i 0) (i 1) (i 2)

theorem idx2_facts : ∀ t : Fin cfg2.N, win2_0.index t (0 : Fin 3) = t.val ∧ win2_0.index t (1 : Fin 3) = 0 ∧ win2_0.index t (2 : Fin 3) = 0
    ∧ win2_5.index t (0 : Fin 3) = t.val ∧ win2_5.index t (1 : Fin 3) = 0 ∧ win2_5.index t (2 : Fin 3) = 0 :=
  (by decide +kernel : ∀ t : Fin grid2.N, _)

/-- Point t's output agrees with the whole-array function on batches 4 t … 4 t + 3. -/
theorem flushed2_5_eq (c : Dev nD) (t : Fin cfg2.N) :
    (dat2 (F := Ideal) V c).flushed 5 t = ((cfg2.win 5).blk t).view.read (Elt Ideal) (outFn2 V c) := by
  obtain ⟨a0, a1, a2, e0, e1, e2⟩ := idx2_facts t
  show (cfg2.win 5).cut (grid2.coords t) ((dat2 (F := Ideal) V c).after 5 t) = _
  rw [after2_5]
  funext j
  obtain ⟨p, n, d, rfl⟩ : ∃ (p : Fin 4) (n : Fin 1024) (d : Fin 256), j = ix3 p n d := ⟨j 0, j 1, j 2, eq_ix3 j⟩
  show out2_5 (F := Ideal) (iblk2 V c 0 t) (scA2 V c) (scC2 V c) (ix3 p n d) = outFn2 V c (((cfg2.win 5).blk t).view.emb (ix3 p n d))
  have hE : ((cfg2.win 0).blk t).view.emb (ix3 p n d) = ((cfg2.win 5).blk t).view.emb (ix3 p n d) := funext fun a => Fin.ext <| by
    match a with
    | ⟨0, _⟩ => show win2_0.index t (0 : Fin 3) * 4 + 1 * p.val = win2_5.index t (0 : Fin 3) * 4 + 1 * p.val; rw [a0, e0]
    | ⟨1, _⟩ => show win2_0.index t (1 : Fin 3) * 1024 + 1 * n.val = win2_5.index t (1 : Fin 3) * 1024 + 1 * n.val; rw [a1, e1]
    | ⟨2, _⟩ => show win2_0.index t (2 : Fin 3) * 256 + 1 * d.val = win2_5.index t (2 : Fin 3) * 256 + 1 * d.val; rw [a2, e2]
  have hn : (((cfg2.win 5).blk t).view.emb (ix3 p n d) 1 : Fin 1024) = n := Fin.ext <| by
    show win2_5.index t (1 : Fin 3) * 1024 + 1 * n.val = n.val; rw [e1]; omega
  rw [out2_5_apply, scA2_apply, scC2_apply, show (iblk2 V c 0 t : Vec Ideal S4x1024x256 .bf16) (ix3 p n d)
    = (V c main_call0_v5_0 : S16x1024x256.Idx → EReal) (((cfg2.win 5).blk t).view.emb (ix3 p n d)) from congrArg (V c main_call0_v5_0 : S16x1024x256.Idx → EReal) hE]
  generalize ((cfg2.win 5).blk t).view.emb (ix3 p n d) = E at hn ⊢
  subst hn
  exact (fun (Y : S16x1024x256.Idx → EReal) a b z z' (h : z = z') => show Y z * a + b = Y z' * a + b by rw [h]) _ _ _ E _ (eq_ix3 E)

theorem tiles2_5 (i : S16x1024x256.Idx) : ∃ t : Fin cfg2.N, (cfg2.win 5).flush t = true ∧ i ∈ ((cfg2.win 5).blk t).view.set := by
  have h0 : (i 0).val < 16 := (i 0).isLt
  have h1 : (i 1).val < 1024 := (i 1).isLt
  have h2 : (i 2).val < 256 := (i 2).isLt
  obtain ⟨s, hs⟩ : ∃ s : Fin cfg2.N, s.val = (i 0).val / 4 := ⟨⟨_, by rw [show cfg2.N = 4 from N_2]; omega⟩, rfl⟩
  obtain ⟨-, -, -, e0, e1, e2⟩ := idx2_facts s
  refine ⟨s, flush2_5 _, ?_⟩
  show i ∈ ((View.whole main_v0).slice (win2_5.rect s)).set
  rw [View.set_slice_whole, Rect.mem_set_unit]
  intro a
  match a with
  | ⟨0, _⟩ => show win2_5.index s (0 : Fin 3) * 4 ≤ (i 0).val ∧ (i 0).val < win2_5.index s (0 : Fin 3) * 4 + 4; rw [e0]; omega
  | ⟨1, _⟩ => show win2_5.index s (1 : Fin 3) * 1024 ≤ (i 1).val ∧ (i 1).val < win2_5.index s (1 : Fin 3) * 1024 + 1024; rw [e1]; omega
  | ⟨2, _⟩ => show win2_5.index s (2 : Fin 3) * 256 ≤ (i 2).val ∧ (i 2).val < win2_5.index s (2 : Fin 3) * 256 + 256; rw [e2]; omega

/-- The four blocks tile the sixteen batches, so the output array ends at y · a + c everywhere. -/
theorem out_apply (c : Dev nD) (b : Fin 16) (n : Fin 1024) (d : Fin 256) :
    ((dat2 (F := Ideal) V c).arrAt 5 cfg2.N : S16x1024x256.Idx → EReal) (ix3 b n d)
      = Cert.Spec.affineK (y2Of V c) (s2Of V c) (q2Of V c) (g2Of V c) (be2Of V c) b n d :=
  congrFun ((dat2 (F := Ideal) V c).arrAt_eq_of_cover 5 (outFn2 V c) (fun t _ => flushed2_5_eq V c t) tiles2_5) (ix3 b n d)

end Val2

end Cert.KernelIdeal.Hand

end
-- ==== Proof.Bound.lean ====
import proofs.«127664_g88656714924069_cont_sun_m_1396_9_alg».proof.Proof.RunArgs
import proofs.«127664_g88656714924069_cont_sun_m_1396_9_alg».proof.Proof.Val0
import proofs.«127664_g88656714924069_cont_sun_m_1396_9_alg».proof.Proof.Val1
import proofs.«127664_g88656714924069_cont_sun_m_1396_9_alg».proof.Proof.Val2
import proofs.«127664_g88656714924069_cont_sun_m_1396_9_alg».proof.Proof.Spec
import proofs.«127664_g88656714924069_cont_sun_m_1396_9_alg».proof.Proof.Reads

noncomputable section

namespace Cert.KernelIdeal.Hand

open Cert.KernelIdeal Cert.KernelIdeal.Gen
open Idealize.ShloMosaic Idealize.ShloMosaic.TcCoe Idealize.SL.Sem Idealize.ShloMosaic.ValueIdx

section Bound

variable (m : (ℓ : Loc nD τ sig) → Buf (Elt Ideal) ℓ) {ρ : Dev nD → PrngReg} (c : Dev nD)

private abbrev aX : Cert.Spec.Act := fun b n d => (m ((c : Thread nD τ).loc main_arg0) : S16x1024x256.Idx → EReal) (ix3 b n d)
private abbrev aAdj : Cert.Spec.Adj := fun b n k => (m ((c : Thread nD τ).loc main_arg1) : S16x1024x1024.Idx → EReal) (ix3 b n k)
private abbrev aW1 : Cert.Spec.Wt := fun k d => (m ((c : Thread nD τ).loc main_arg2) : S256x256.Idx → EReal) (ix2 k d)
private abbrev aB1 : Cert.Spec.Chan := fun d => (m ((c : Thread nD τ).loc main_arg3) : S256.Idx → EReal) (ix1 d)
private abbrev aW2 : Cert.Spec.Wt := fun k d => (m ((c : Thread nD τ).loc main_arg4) : S256x256.Idx → EReal) (ix2 k d)
private abbrev aB2 : Cert.Spec.Chan := fun d => (m ((c : Thread nD τ).loc main_arg5) : S256.Idx → EReal) (ix1 d)
private abbrev aG1 : Cert.Spec.Node := fun n => (m ((c : Thread nD τ).loc main_arg6) : S1024.Idx → EReal) (ix1 n)
private abbrev aBe1 : Cert.Spec.Node := fun n => (m ((c : Thread nD τ).loc main_arg7) : S1024.Idx → EReal) (ix1 n)
private abbrev aG2 : Cert.Spec.Node := fun n => (m ((c : Thread nD τ).loc main_arg8) : S1024.Idx → EReal) (ix1 n)
private abbrev aBe2 : Cert.Spec.Node := fun n => (m ((c : Thread nD τ).loc main_arg9) : S1024.Idx → EReal) (ix1 n)
private abbrev Y1 : Cert.Spec.Act := Cert.Spec.conv (aX m c) (aAdj m c) (aW1 m c) (aB1 m c)
private abbrev Y2 : Cert.Spec.Act :=
  Cert.Spec.conv (Cert.Spec.bnK (Y1 m c) (aG1 m c) (aBe1 m c)) (aAdj m c) (aW2 m c) (aB2 m c)

variable {m c}

private theorem xOf_V1 : xOf (V1 m ρ) c = aX m c :=
  funext₃ fun b n d => congrFun (V1_kept m ρ c main_arg0 (by decide)) (ix3 b n d)
private theorem adjOf_V1 : adjOf (V1 m ρ) c = aAdj m c :=
  funext₃ fun b n k => congrFun (V1_kept m ρ c main_arg1 (by decide)) (ix3 b n k)
private theorem w1Of_V1 : w1Of (V1 m ρ) c = aW1 m c :=
  funext₂ fun k d => congrFun (V1_kept m ρ c main_arg2 (by decide)) (ix2 k d)
private theorem b1Of_V1 : b1Of (V1 m ρ) c = aB1 m c :=
  funext fun d => (congrFun (V1_main_call0_v0 m ρ c) (ix2 0 d)).trans (shapeCast_a_1a_apply _ _ 0 d)

-- The first region's three results are the first layer and its row sums over the arguments.
private theorem out1_V3 : y1Of (V3 m ρ) c = Y1 m c ∧ s1Of (V3 m ρ) c = Cert.Spec.rowSum (Y1 m c)
    ∧ q1Of (V3 m ρ) c = Cert.Spec.rowSq (Y1 m c) := by
  refine ⟨funext₃ fun b n d => (congrFun (V3_out0 m ρ c 4 (by decide)) (ix3 b n d)).trans ((y1_apply (V1 m ρ) c b n d).trans ?_),
    funext₂ fun b n => (congrFun (V3_out0 m ρ c 5 (by decide)) (ix3 b n 0)).trans ((s1_apply (V1 m ρ) c b n).trans ?_),
    funext₂ fun b n => (congrFun (V3_out0 m ρ c 6 (by decide)) (ix3 b n 0)).trans ((q1_apply (V1 m ρ) c b n).trans ?_)⟩ <;>
    rw [xOf_V1, adjOf_V1, w1Of_V1, b1Of_V1]
private theorem adj1Of_V3 : adj1Of (V3 m ρ) c = aAdj m c :=
  funext₃ fun b n k => congrFun (V3_kept m ρ c main_arg1 (by decide)) (ix3 b n k)
private theorem w2Of_V3 : w2Of (V3 m ρ) c = aW2 m c :=
  funext₂ fun k d => congrFun (V3_kept m ρ c main_arg4 (by decide)) (ix2 k d)
private theorem b2Of_V3 : b2Of (V3 m ρ) c = aB2 m c :=
  funext fun d => (congrFun (V3_main_call0_v2 m ρ c) (ix2 0 d)).trans (shapeCast_a_1a_apply _ _ 0 d)
private theorem g1Of_V3 : g1Of (V3 m ρ) c = aG1 m c :=
  funext fun n => (congrFun (V3_main_call0_v3 m ρ c) (ix2 n 0)).trans (shapeCast_a_a1_apply _ _ n 0)
private theorem be1Of_V3 : be1Of (V3 m ρ) c = aBe1 m c :=
  funext fun n => (congrFun (V3_main_call0_v4 m ρ c) (ix2 n 0)).trans (shapeCast_a_a1_apply _ _ n 0)
private theorem h1Of_V3 : h1Of (V3 m ρ) c = Cert.Spec.bnK (Y1 m c) (aG1 m c) (aBe1 m c) := by
  show Cert.Spec.affineK _ _ _ _ _ = _
  rw [out1_V3.1, out1_V3.2.1, out1_V3.2.2, g1Of_V3, be1Of_V3]
  rfl

-- The second region's three results are the second layer and its row sums.
private theorem out2_V5 : y2Of (V5 m ρ) c = Y2 m c ∧ s2Of (V5 m ρ) c = Cert.Spec.rowSum (Y2 m c)
    ∧ q2Of (V5 m ρ) c = Cert.Spec.rowSq (Y2 m c) := by
  refine ⟨funext₃ fun b n d => (congrFun (V5_out1 m ρ c 8 (by decide)) (ix3 b n d)).trans ((y2_apply (V3 m ρ) c b n d).trans ?_),
    funext₂ fun b n => (congrFun (V5_out1 m ρ c 9 (by decide)) (ix3 b n 0)).trans ((s2_apply (V3 m ρ) c b n).trans ?_),
    funext₂ fun b n => (congrFun (V5_out1 m ρ c 10 (by decide)) (ix3 b n 0)).trans ((q2_apply (V3 m ρ) c b n).trans ?_)⟩ <;>
    rw [h1Of_V3, adj1Of_V3, w2Of_V3, b2Of_V3]
private theorem g2Of_V5 : g2Of (V5 m ρ) c = aG2 m c :=
  funext fun n => (congrFun (V5_main_call0_v6 m ρ c) (ix2 n 0)).trans (shapeCast_a_a1_apply _ _ n 0)
private theorem be2Of_V5 : be2Of (V5 m ρ) c = aBe2 m c :=
  funext fun n => (congrFun (V5_main_call0_v7 m ρ c) (ix2 n 0)).trans (shapeCast_a_a1_apply _ _ n 0)

end Bound

theorem kernel_value (m : (ℓ : Loc nD τ sig) → Buf (Elt Ideal) ℓ) (ρ : Dev nD → PrngReg) (c : Dev nD)
    (b : Fin 16) (n : Fin 1024) (d : Fin 256) :
    (W6 (F := Ideal) m ρ c (Proc.devRef .tc main_v0) : S16x1024x256.Idx → EReal) (ix3 b n d)
      = Cert.Spec.kernelOut
          (fun b n d => (m ((c : Thread nD τ).loc main_arg0) : S16x1024x256.Idx → EReal) (ix3 b n d))
          (fun b n k => (m ((c : Thread nD τ).loc main_arg1) : S16x1024x1024.Idx → EReal) (ix3 b n k))
          (fun k d => (m ((c : Thread nD τ).loc main_arg2) : S256x256.Idx → EReal) (ix2 k d))
          (fun d => (m ((c : Thread nD τ).loc main_arg3) : S256.Idx → EReal) (ix1 d))
          (fun k d => (m ((c : Thread nD τ).loc main_arg4) : S256x256.Idx → EReal) (ix2 k d))
          (fun d => (m ((c : Thread nD τ).loc main_arg5) : S256.Idx → EReal) (ix1 d))
          (fun n => (m ((c : Thread nD τ).loc main_arg6) : S1024.Idx → EReal) (ix1 n))
          (fun n => (m ((c : Thread nD τ).loc main_arg7) : S1024.Idx → EReal) (ix1 n))
          (fun n => (m ((c : Thread nD τ).loc main_arg8) : S1024.Idx → EReal) (ix1 n))
          (fun n => (m ((c : Thread nD τ).loc main_arg9) : S1024.Idx → EReal) (ix1 n)) b n d := by
  refine (congrFun (W6_arr m ρ c 5) (ix3 b n d)).trans ((out_apply (V5 m ρ) c b n d).trans ?_)
  rw [out2_V5.1, out2_V5.2.1, out2_V5.2.2, g2Of_V5, be2Of_V5]
  rfl

end Cert.KernelIdeal.Hand

end
-- ==== Proof.RefTerm.lean ====
import proofs.«127664_g88656714924069_cont_sun_m_1396_9_alg».proof.ReferenceIdeal

noncomputable section

namespace Cert.ReferenceIdeal.Hand

open Idealize.ShloMosaic Cert.ReferenceIdeal
open Cert.ReferenceIdeal.Facts₀ Cert.ReferenceIdeal.Facts

variable {F : FTy → Type} [FloatOps F] [Facts]

section
variable {α : Type}
-- A scalar and a per-node vector as [1, 1024, 1] columns, and such a column spread over batch and channel.
abbrev scal : (S_.Idx → α) → S1x1024x1.Idx → α := broadcastInDim S1x1024x1 ![] bcast_S_S1x1024x1
abbrev col : (S1024.Idx → α) → S1x1024x1.Idx → α := broadcastInDim S1x1024x1 ![1] bcast_S1024_S1x1024x1_1
abbrev full : (S1x1024x1.Idx → α) → S16x1024x256.Idx → α := broadcastInDim S16x1024x256 ![0, 1, 2] bcast_S1x1024x1_S16x1024x256_0_1_2
end

-- The sum over the batch and channel axes, from an initial scalar.
abbrev sumBD (x : FVec F S16x1024x256 .f32) (v : FVec F S_ .f32) : FVec F S1024 .f32 :=
  Host.reduceAdd x v reducesTo_S16x1024x256_S1024_d0_2 h_S_

-- Each stage is the program's operations for that stage composed in the program's order.
def reluV (y : FVec F S16x1024x256 .f32) : FVec F S16x1024x256 .f32 :=
  maximumf y (broadcastInDim S16x1024x256 ![] bcast_S_S16x1024x256 (constant (F := F) S_ .f32 0x00000000#32))

def convV (x : FVec F S16x1024x256 .f32) (adj : FVec F S16x1024x1024 .f32) (W : FVec F S256x256 .f32)
    (b : FVec F S256 .f32) : FVec F S16x1024x256 .f32 :=
  reluV
    (addf
      (Host.dotGeneral dot_S16x1024x1024_S16x1024x256_S16x1024x256_2_1_1_2_0_0 none adj
        (Host.dotGeneral dot_S16x1024x256_S256x256_S16x1024x256_2_0_01_1_n_n none x W))
      (broadcastInDim S16x1024x256 ![0, 1, 2] bcast_S1x1x256_S16x1024x256_0_1_2
        (broadcastInDim S1x1x256 ![2] bcast_S256_S1x1x256_2 b)))

def meanV (y : FVec F S16x1024x256 .f32) : FVec F S1x1024x1 .f32 :=
  Host.divf (col (sumBD y (constant (F := F) S_ .f32 0x00000000#32)))
    (scal (constant (F := F) S_ .f32 0x45800000#32))

-- The divisor is the count minus the correction 0; the quotient is kept where the divisor is positive, NaN elsewhere.
def varV (y : FVec F S16x1024x256 .f32) : FVec F S1x1024x1 .f32 :=
  select
    (scal (cmpf .ogt (subf (constant (F := F) S_ .f32 0x45800000#32) (sitofp (F := F) .f32 (constantI S_ 32 0#32)))
      (constant (F := F) S_ .f32 0x00000000#32)))
    (Host.divf
      (col (sumBD (mulf (subf y (full (meanV y))) (subf y (full (meanV y)))) (constant (F := F) S_ .f32 0x00000000#32)))
      (scal (subf (constant (F := F) S_ .f32 0x45800000#32) (sitofp (F := F) .f32 (constantI S_ 32 0#32)))))
    (scal (id (constant (F := F) S_ .f32 0x7FC00000#32)))

def bnV (y : FVec F S16x1024x256 .f32) (g be : FVec F S1024 .f32) : FVec F S16x1024x256 .f32 :=
  addf
    (mulf
      (mulf (subf y (full (meanV y)))
        (full (Host.rsqrt (addf (varV y) (scal (constant (F := F) S_ .f32 0x3727C5AC#32))))))
      (full (col g)))
    (full (col be))

def refVal (x : FVec F S16x1024x256 .f32) (adj : FVec F S16x1024x1024 .f32)
    (W1 : FVec F S256x256 .f32) (b1 : FVec F S256 .f32) (W2 : FVec F S256x256 .f32) (b2 : FVec F S256 .f32)
    (g1 be1 g2 be2 : FVec F S1024 .f32) : FVec F S16x1024x256 .f32 :=
  bnV (convV (bnV (convV x adj W1 b1) g1 be1) adj W2 b2) g2 be2

end Cert.ReferenceIdeal.Hand

end
-- ==== Proof.RefOps.lean ====
import proofs.«127664_g88656714924069_cont_sun_m_1396_9_alg».proof.Proof.RefTerm
import Idealize.ShloMosaic.Lib.StableHlo.Run

noncomputable section

namespace Cert.ReferenceIdeal.Hand

open Cert.ReferenceIdeal Idealize.ShloMosaic Idealize.ShloMosaic.StableHlo
open Cert.ReferenceIdeal.Facts₀ Cert.ReferenceIdeal.Facts

variable {F : FTy → Type} [FloatOps F] [Facts]

section Layer

variable (x v0 v1 v3 v4 v11 v12 v16 v17 v19 v20 v22 v23 : TRef sig ⟨S16x1024x256, .f32⟩)
  (adj : TRef sig ⟨S16x1024x1024, .f32⟩) (W : TRef sig ⟨S256x256, .f32⟩) (b : TRef sig ⟨S256, .f32⟩)
  (v2 : TRef sig ⟨S1x1x256, .f32⟩) (g be v6 : TRef sig ⟨S1024, .f32⟩) (c0 c1 c2 : TRef sig ⟨S_, .f32⟩)
  (c : TRef sig ⟨S_, .i32⟩) (v7 v8 v9 v13 v14 v15 v18 v21 : TRef sig ⟨S1x1024x1, .f32⟩)
  (r : fn_relu.Bufs) (w : fn_var.Bufs)

-- One layer's 52 operations over any buffers of the right types, the calls unfolded over their records r and w.
abbrev layer : List (HloOp τ sig (Elt F)) :=
  [ TRef.binary x W v0 (Host.dotGeneral dot_S16x1024x256_S256x256_S16x1024x256_2_0_01_1_n_n none),
    TRef.binary adj v0 v1 (Host.dotGeneral dot_S16x1024x1024_S16x1024x256_S16x1024x256_2_1_1_2_0_0 none),
    TRef.unary b v2 (broadcastInDim S1x1x256 ![2] bcast_S256_S1x1x256_2),
    TRef.unary v2 v3 (broadcastInDim S16x1024x256 ![0, 1, 2] bcast_S1x1x256_S16x1024x256_0_1_2),
    TRef.binary v1 v3 v4 addf,
    TRef.nullary r.cst (constant S_ .f32 0x00000000#32),
    TRef.unary r.cst r.v0 (broadcastInDim S16x1024x256 ![] bcast_S_S16x1024x256),
    TRef.binary v4 r.v0 r.v1 maximumf,
    TRef.nullary c0 (constant S_ .f32 0x00000000#32),
    TRef.binary r.v1 c0 v6 sumBD,
    TRef.unary v6 v7 col,
    TRef.nullary c1 (constant S_ .f32 0x45800000#32),
    TRef.unary c1 v8 scal,
    TRef.binary v7 v8 v9 Host.divf,
    TRef.nullary c (constantI S_ 32 0#32),
    TRef.nullary w.cst (constant S_ .f32 0x00000000#32),
    TRef.binary r.v1 w.cst w.v0 sumBD,
    TRef.unary w.v0 w.v1 col,
    TRef.nullary w.cst_0 (constant S_ .f32 0x45800000#32),
    TRef.unary w.cst_0 w.v2 scal,
    TRef.binary w.v1 w.v2 w.v3 Host.divf,
    TRef.unary w.v3 w.v4 full,
    TRef.binary r.v1 w.v4 w.v5 subf,
    TRef.binary w.v5 w.v5 w.v6 mulf,
    TRef.unary c w.v7 (sitofp .f32),
    TRef.nullary w.cst_1 (constant S_ .f32 0x45800000#32),
    TRef.binary w.cst_1 w.v7 w.v8 subf,
    TRef.nullary w.cst_2 (constant S_ .f32 0x00000000#32),
    TRef.binary w.v6 w.cst_2 w.v9 sumBD,
    TRef.unary w.v9 w.v10 col,
    TRef.unary w.v8 w.v11 scal,
    TRef.binary w.v10 w.v11 w.v12 Host.divf,
    TRef.nullary w.cst_3 (constant S_ .f32 0x00000000#32),
    TRef.binary w.v8 w.cst_3 w.v13 (cmpf .ogt),
    TRef.nullary w.cst_4 (constant S_ .f32 0x7FC00000#32),
    TRef.unary w.cst_4 w.call0.v0 id,
    TRef.unary w.call0.v0 w.call0.v1 scal,
    TRef.ternary w.v13 w.v12 w.call0.v1 w.call0.v2 fun p a b => select (scal p) a b,
    TRef.unary v9 v11 full,
    TRef.binary r.v1 v11 v12 subf,
    TRef.nullary c2 (constant S_ .f32 0x3727C5AC#32),
    TRef.unary c2 v13 scal,
    TRef.binary w.call0.v2 v13 v14 addf,
    TRef.unary v14 v15 Host.rsqrt,
    TRef.unary v15 v16 full,
    TRef.binary v12 v16 v17 mulf,
    TRef.unary g v18 col,
    TRef.unary v18 v19 full,
    TRef.binary v17 v19 v20 mulf,
    TRef.unary be v21 col,
    TRef.unary v21 v22 full,
    TRef.binary v20 v22 v23 addf ]

variable {x v0 v1 v3 v4 v11 v12 v16 v17 v19 v20 v22 v23 adj W b v2 g be v6 c0 c1 c2 c v7 v8 v9 v13 v14 v15 v18 v21 r w}

theorem layer_ok : ∀ op ∈ (layer x v0 v1 v3 v4 v11 v12 v16 v17 v19 v20 v22 v23 adj W b v2 g be v6 c0 c1 c2 c v7 v8 v9 v13 v14 v15 v18 v21 r w : List (HloOp τ sig (Elt F))),
    op.bufs ⊆ tcRefs τ sig ∧ op.fresh = ∅ := by
  intro _ h
  repeat (cases h with
    | head => exact ⟨by simp only [nullary_bufs_sub, unary_bufs_sub, binary_bufs_sub, ternary_bufs_sub], rfl⟩
    | tail _ h => ?_)
  exact nomatch h

end Layer

abbrev ops1 : List (HloOp τ sig (Elt F)) :=
  layer (.of main_arg0) (.of main_v0) (.of main_v1) (.of main_v3) (.of main_v4) (.of main_v11) (.of main_v12) (.of main_v16)
    (.of main_v17) (.of main_v19) (.of main_v20) (.of main_v22) (.of main_v23) (.of main_arg1) (.of main_arg2) (.of main_arg3)
    (.of main_v2) (.of main_arg6) (.of main_arg7) (.of main_v6) (.of main_cst) (.of main_cst_0) (.of main_cst_1) (.of main_c)
    (.of main_v7) (.of main_v8) (.of main_v9) (.of main_v13) (.of main_v14) (.of main_v15) (.of main_v18) (.of main_v21)
    main_call0 main_call1

abbrev ops2 : List (HloOp τ sig (Elt F)) :=
  layer (.of main_v23) (.of main_v24) (.of main_v25) (.of main_v27) (.of main_v28) (.of main_v35) (.of main_v36) (.of main_v40)
    (.of main_v41) (.of main_v43) (.of main_v44) (.of main_v46) (.of main_v47) (.of main_arg1) (.of main_arg4) (.of main_arg5)
    (.of main_v26) (.of main_arg8) (.of main_arg9) (.of main_v30) (.of main_cst_2) (.of main_cst_3) (.of main_cst_5) (.of main_c_4)
    (.of main_v31) (.of main_v32) (.of main_v33) (.of main_v37) (.of main_v38) (.of main_v39) (.of main_v42) (.of main_v45)
    main_call2 main_call3

end Cert.ReferenceIdeal.Hand

end
-- ==== Proof.RefRun.lean ====
import proofs.«127664_g88656714924069_cont_sun_m_1396_9_alg».proof.Proof.RefTerm
import proofs.«127664_g88656714924069_cont_sun_m_1396_9_alg».proof.Proof.RefOps
import Idealize.ShloMosaic.Lib.Pipeline.Frame

noncomputable section

namespace Cert.ReferenceIdeal.Hand

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F] [Facts]

abbrev ops : List (HloOp τ sig (Elt F)) := ops1 ++ ops2

-- The calls unfolded, @main is the two layers' operations in order.
theorem main_eq (c : Dev nD) : main (F := F) c = seq ops := by chain_rfl

theorem ops_ok (op : HloOp τ sig (Elt F)) (h : op ∈ ops) : op.bufs ⊆ tcRefs τ sig ∧ op.fresh = ∅ :=
  (List.mem_append.1 h).elim (layer_ok op) (layer_ok op)

-- Each layer leaves its normalised layer in its last buffer.
theorem layer_out (V : Valuation τ sig (Elt F)) :
    after ops1 V main_v23 = bnV (convV (V main_arg0) (V main_arg1) (V main_arg2) (V main_arg3)) (V main_arg6) (V main_arg7)
      ∧ after ops2 V main_v47 = bnV (convV (V main_v23) (V main_arg1) (V main_arg4) (V main_arg5)) (V main_arg8) (V main_arg9) := by
  constructor <;> after_results_simp <;> rfl

-- Neither layer writes an argument.
theorem keep (V : Valuation τ sig (Elt F)) (r : Ref sig .tc) (hr : r ∈ [main_arg0, main_arg1, main_arg2, main_arg3, main_arg4, main_arg5, main_arg6, main_arg7, main_arg8, main_arg9]) :
    after ops1 V r = V r ∧ after ops2 V r = V r := by
  fin_cases hr <;> exact ⟨by after_results_simp, by after_results_simp⟩

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = refVal (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => by
      have k := fun r hr => (h c r).trans ((congrFun (after_append ops1 ops2 _) _).trans
        (((keep _ r hr).2).trans (keep (launchContents m c) r hr).1))
      refine ⟨(h c main_v47).trans ?_, ?_, ?_, ?_, ?_, ?_, ?_, ?_, ?_, ?_, ?_⟩
      · rw [after_append, (layer_out _).2, (layer_out _).1, (keep _ main_arg1 (by decide)).1, (keep _ main_arg4 (by decide)).1,
          (keep _ main_arg5 (by decide)).1, (keep _ main_arg8 (by decide)).1, (keep _ main_arg9 (by decide)).1]
        rfl
      all_goals exact k _ (by decide))
    (run_seq (by decide) (by decide) defs main (fun _ => ops) main_eq (fun _ => List.forall_iff_forall_mem.2 fun op h => (ops_ok op h).1)
      m ρ fun _ op h => (ops_ok op h).2)

end Cert.ReferenceIdeal.Hand

end
-- ==== Proof.RefRead.lean ====
import proofs.«127664_g88656714924069_cont_sun_m_1396_9_alg».proof.Proof.RefTerm
import proofs.«127664_g88656714924069_cont_sun_m_1396_9_alg».proof.Proof.Spec
import proofs.«127664_g88656714924069_cont_sun_m_1396_9_alg».proof.Proof.Reads
import Idealize.ShloMosaic.Lib.IdealHost

noncomputable section

namespace Cert.ReferenceIdeal.Hand

open Idealize.ShloMosaic Idealize.ShloMosaic.ValueIdx Cert.ReferenceIdeal
open Cert.ReferenceIdeal.Facts₀ Cert.ReferenceIdeal.Facts
open scoped BigOperators

variable [Facts]

-- x · W at (b, n, d) is the sum over the channel c of x[b, n, c] · W[c, d].
theorem dotXW_apply (l : FVec Ideal S16x1024x256 .f32) (r : FVec Ideal S256x256 .f32)
    (b : Fin 16) (n : Fin 1024) (d : Fin 256) :
    Host.dotGeneral (F := Ideal) dot_S16x1024x256_S256x256_S16x1024x256_2_0_01_1_n_n none l r (ix3 b n d)
      = ∑ c : Fin 256, l (ix3 b n c) * r (ix2 c d) := by
  simp only [Host.dotGeneral]
  rw [Ideal.dotGeneral_apply]
  refine Cert.KernelIdeal.Hand.sum_contr1 _ 256 rfl rfl l r _ (ix3 b n) (ix2 · d) (fun k => funext fun a => Fin.ext ?_)
    (fun k => funext fun a => Fin.ext ?_)
  · match a with
    | ⟨0, _⟩ => rfl
    | ⟨1, _⟩ => rfl
    | ⟨2, _⟩ => exact (DotDims.lhsIdx_val_of_single _ rfl _ _).trans (contrEquiv1_symm_val _ 256 rfl rfl k)
  · match a with
    | ⟨0, _⟩ => exact (DotDims.rhsIdx_val_of_single _ rfl _ _).trans (contrEquiv1_symm_val _ 256 rfl rfl k)
    | ⟨1, _⟩ => rfl

-- adj · s at (b, n, d) is the sum over the node m of adj[b, n, m] · s[b, m, d].
theorem dotAdj_apply (l : FVec Ideal S16x1024x1024 .f32) (r : FVec Ideal S16x1024x256 .f32)
    (b : Fin 16) (n : Fin 1024) (d : Fin 256) :
    Host.dotGeneral (F := Ideal) dot_S16x1024x1024_S16x1024x256_S16x1024x256_2_1_1_2_0_0 none l r (ix3 b n d)
      = ∑ m : Fin 1024, l (ix3 b n m) * r (ix3 b m d) := by
  simp only [Host.dotGeneral]
  rw [Ideal.dotGeneral_apply]
  refine Cert.KernelIdeal.Hand.sum_contr1 _ 1024 rfl rfl l r _ (ix3 b n) (ix3 b · d) (fun k => funext fun a => Fin.ext ?_)
    (fun k => funext fun a => Fin.ext ?_)
  · match a with
    | ⟨0, _⟩ => rfl
    | ⟨1, _⟩ => rfl
    | ⟨2, _⟩ => exact (DotDims.lhsIdx_val_of_single _ rfl _ _).trans (contrEquiv1_symm_val _ 1024 rfl rfl k)
  · match a with
    | ⟨0, _⟩ => rfl
    | ⟨1, _⟩ => exact (DotDims.rhsIdx_val_of_single _ rfl _ _).trans (contrEquiv1_symm_val _ 1024 rfl rfl k)
    | ⟨2, _⟩ => rfl

-- The indices that drop to node n are exactly (b, n, d), so the sum over them is the double sum.
theorem reduceBD_apply (x : FVec Ideal S16x1024x256 .f32) (v : FVec Ideal S_ .f32) (n : Fin 1024) :
    sumBD (F := Ideal) x v (ix1 n) = v ix0 + ∑ b : Fin 16, ∑ d : Fin 256, x (ix3 b n d) := by
  unfold sumBD
  rw [hostReduceAdd_apply]
  unfold Ideal.hostReduceAdd
  rw [eq_ix0 (Shape.Idx.first h_S_), ← Fintype.sum_prod_type' fun b d => x (ix3 b n d)]
  have hv : ∀ i : S16x1024x256.Idx,
      ((reducesTo_S16x1024x256_S1024_d0_2 : S16x1024x256.ReducesTo [0, 2] S1024).drop i 0 : Nat) = (i 1 : Fin 1024).val :=
    fun i => Shape.ReducesTo.drop_apply_val_of_eq _ i 0 1
  have hl : ∀ i ∈ Finset.univ.filter fun i : S16x1024x256.Idx =>
      (reducesTo_S16x1024x256_S1024_d0_2 : S16x1024x256.ReducesTo [0, 2] S1024).drop i = ix1 n,
      ix3 (i 0 : Fin 16) n (i 2 : Fin 256) = i := fun i hi => funext fun a => by
    match a with
    | ⟨0, _⟩ => rfl
    | ⟨1, _⟩ => exact Fin.ext (((hv i).symm.trans (congrArg Fin.val (congrFun (Finset.mem_filter.1 hi).2 0))).symm)
    | ⟨2, _⟩ => rfl
  refine congrArg (v ix0 + ·) (Finset.sum_nbij' (fun i => ((i 0 : Fin 16), (i 2 : Fin 256))) (fun p => ix3 p.1 n p.2)
    (fun _ _ => Finset.mem_univ _) (fun p _ => Finset.mem_filter.2 ⟨Finset.mem_univ _, funext fun a => ?_⟩) hl (fun _ _ => rfl)
    fun i hi => congrArg x (hl i hi).symm)
  match a with
  | ⟨0, _⟩ => exact Fin.ext (hv _)

section Broadcasts
variable {α : Type}

theorem bias_apply (v : S256.Idx → α) (b : Fin 16) (n : Fin 1024) (d : Fin 256) :
    broadcastInDim S16x1024x256 ![0, 1, 2] bcast_S1x1x256_S16x1024x256_0_1_2
      (broadcastInDim S1x1x256 ![2] bcast_S256_S1x1x256_2 v) (ix3 b n d) = v (ix1 d) :=
  (broadcastInDim_apply _ _ _ _ (ix3 (0 : Fin 1) (0 : Fin 1) d) fun a => by
    match a with
    | ⟨0, _⟩ => rfl
    | ⟨1, _⟩ => rfl
    | ⟨2, _⟩ => rfl).trans (broadcastInDim_apply _ _ v _ (ix1 d) fun a => by
    match a with
    | ⟨0, _⟩ => rfl)

theorem col_apply (v : S1024.Idx → α) (n : Fin 1024) : col v (ix3 (0 : Fin 1) n (0 : Fin 1)) = v (ix1 n) :=
  broadcastInDim_apply _ _ v _ (ix1 n) fun a => by
    match a with
    | ⟨0, _⟩ => rfl

theorem full_apply (y : S1x1024x1.Idx → α) (b : Fin 16) (n : Fin 1024) (d : Fin 256) :
    full y (ix3 b n d) = y (ix3 (0 : Fin 1) n (0 : Fin 1)) :=
  broadcastInDim_apply _ _ y _ (ix3 (0 : Fin 1) n (0 : Fin 1)) fun a => by
    match a with
    | ⟨0, _⟩ => rfl
    | ⟨1, _⟩ => rfl
    | ⟨2, _⟩ => rfl

end Broadcasts

theorem count_pos : (0 : EReal) < Ideal.ofBits .f32 0x45800000#32 := by
  have h : Ideal.ofBits .f32 0x45800000#32 = ((4096 : ℝ) : EReal) := by
    simp [Ideal.ofBits, Ideal.ieee, -EReal.coe_mul]; norm_num
  rw [h]
  exact EReal.coe_pos.mpr (by norm_num)

-- The correction is the integer 0, so the count minus the correction is the count.
theorem count_sub_apply :
    subf (constant (F := Ideal) S_ .f32 0x45800000#32) (sitofp (F := Ideal) .f32 (constantI S_ 32 0#32)) ix0
      = Ideal.ofBits .f32 0x45800000#32 := by
  rw [subf_apply, sitofp_apply, constant_apply]
  show Ideal.ofBits .f32 0x45800000#32 - ((((0#32 : BitVec 32).toInt : ℤ) : ℝ) : EReal) = _
  rw [show (0#32 : BitVec 32).toInt = 0 from rfl, Int.cast_zero, EReal.coe_zero, sub_zero]

theorem cond_apply (j : S1x1024x1.Idx) :
    broadcastInDim S1x1024x1 ![] bcast_S_S1x1024x1
      (cmpf .ogt (subf (constant (F := Ideal) S_ .f32 0x45800000#32) (sitofp (F := Ideal) .f32 (constantI S_ 32 0#32)))
        (constant (F := Ideal) S_ .f32 0x00000000#32)) j = 1#1 := by
  rw [broadcastInDim_scalar_apply, cmpf_apply, count_sub_apply, constant_apply, Ideal.ofBits_zero_f32, Ideal.cmpf_def]
  unfold Ideal.cmp
  simp only [decide_eq_true count_pos]
  rfl

theorem hostRsqrt_apply {s : Shape} {φ : FTy} (a : FVec Ideal s φ) (i : s.Idx) :
    Host.rsqrt a i = Ideal.rsqrt (a i) := rfl

theorem convV_fun (x : FVec Ideal S16x1024x256 .f32) (adj : FVec Ideal S16x1024x1024 .f32)
    (W : FVec Ideal S256x256 .f32) (bias : FVec Ideal S256 .f32) :
    (fun b n d => convV (F := Ideal) x adj W bias (ix3 b n d))
      = Cert.Spec.conv (fun b n d => x (ix3 b n d)) (fun b n m => adj (ix3 b n m)) (fun c d => W (ix2 c d))
          (fun d => bias (ix1 d)) := by
  funext b n d
  unfold convV reluV
  rw [maximumf_apply, broadcastInDim_scalar_apply, constant_apply, Ideal.ofBits_zero_f32, addf_apply, dotAdj_apply, bias_apply]
  simp only [dotXW_apply]
  rfl

theorem meanV_apply (y : FVec Ideal S16x1024x256 .f32) (n : Fin 1024) :
    meanV (F := Ideal) y (ix3 (0 : Fin 1) n (0 : Fin 1)) = Cert.Spec.meanR (fun b n d => y (ix3 b n d)) n := by
  unfold meanV scal
  rw [hostDivf_apply, col_apply, broadcastInDim_scalar_apply, reduceBD_apply, constant_apply, constant_apply,
    Ideal.ofBits_zero_f32, zero_add]
  rfl

-- The divisor is positive, so the quotient is kept, and the divisor is the count.
theorem varV_apply (y : FVec Ideal S16x1024x256 .f32) (n : Fin 1024) :
    varV (F := Ideal) y (ix3 (0 : Fin 1) n (0 : Fin 1)) = Cert.Spec.varR (fun b n d => y (ix3 b n d)) n := by
  unfold varV scal
  rw [select_apply, cond_apply, select_one, hostDivf_apply, col_apply, broadcastInDim_scalar_apply,
    count_sub_apply, reduceBD_apply, constant_apply, Ideal.ofBits_zero_f32, zero_add]
  unfold Cert.Spec.varR
  refine congrArg₂ Ideal.div (Finset.sum_congr rfl fun b _ => Finset.sum_congr rfl fun d _ => ?_) rfl
  rw [mulf_apply, subf_apply, full_apply, meanV_apply]

theorem bnV_fun (y : FVec Ideal S16x1024x256 .f32) (g be : FVec Ideal S1024 .f32) :
    (fun b n d => bnV (F := Ideal) y g be (ix3 b n d))
      = Cert.Spec.bnR (fun b n d => y (ix3 b n d)) (fun n => g (ix1 n)) (fun n => be (ix1 n)) := by
  funext b n d
  unfold bnV scal
  rw [addf_apply, mulf_apply, mulf_apply, subf_apply, full_apply, full_apply, full_apply, full_apply, col_apply, col_apply,
    hostRsqrt_apply, addf_apply, broadcastInDim_scalar_apply, constant_apply, meanV_apply, varV_apply]
  rfl

theorem refVal_apply (x : FVec Ideal S16x1024x256 .f32) (adj : FVec Ideal S16x1024x1024 .f32)
    (W1 : FVec Ideal S256x256 .f32) (b1 : FVec Ideal S256 .f32) (W2 : FVec Ideal S256x256 .f32)
    (b2 : FVec Ideal S256 .f32) (g1 be1 g2 be2 : FVec Ideal S1024 .f32)
    (b : Fin 16) (n : Fin 1024) (d : Fin 256) :
    refVal (F := Ideal) x adj W1 b1 W2 b2 g1 be1 g2 be2 (ix3 b n d)
      = Cert.Spec.refOut (fun b n d => x (ix3 b n d)) (fun b n m => adj (ix3 b n m)) (fun c d => W1 (ix2 c d))
          (fun d => b1 (ix1 d)) (fun c d => W2 (ix2 c d)) (fun d => b2 (ix1 d)) (fun n => g1 (ix1 n))
          (fun n => be1 (ix1 n)) (fun n => g2 (ix1 n)) (fun n => be2 (ix1 n)) b n d := by
  unfold refVal Cert.Spec.refOut
  exact congrFun (congrFun (congrFun ((bnV_fun _ _ _).trans (by rw [convV_fun, bnV_fun, convV_fun])) b) n) d

end Cert.ReferenceIdeal.Hand

end
-- ==== Proof.SpecLaw.lean ====
import proofs.«127664_g88656714924069_cont_sun_m_1396_9_alg».proof.Proof.Spec

noncomputable section

namespace Cert.Spec

open Idealize.ShloMosaic

-- The three float words: 2⁻¹², 4096, and ε as some positive real.
theorem inv4096_eq : inv4096 = ((1 / 4096 : ℝ) : EReal) := by
  simp [inv4096, Ideal.ofBits, Ideal.ieee, -EReal.coe_mul]; norm_num

theorem n4096_eq : n4096 = ((4096 : ℝ) : EReal) := by
  simp [n4096, Ideal.ofBits, Ideal.ieee, -EReal.coe_mul]; norm_num

theorem eps_pos : ∃ e : ℝ, 0 < e ∧ eps = (e : EReal) := by
  refine ⟨(10995116 : ℝ) * (2 : ℝ) ^ (-40 : ℤ), by positivity, ?_⟩
  simp [eps, Ideal.ofBits, Ideal.ieee, -EReal.coe_mul]

-- Sums of real-coerced terms are real-coerced sums, and the coercion commutes with the maximum with zero.
private theorem coe_sum {α : Type*} (s : Finset α) (f : α → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

private theorem coe_max_zero (r : ℝ) : max (r : EReal) 0 = ((max r 0 : ℝ) : EReal) := by
  rw [← EReal.coe_zero]
  exact (EReal.coe_strictMono.monotone.map_max).symm

theorem conv_fin {x : Act} {adj : Adj} {W : Wt} {b : Chan} (hx : Fin3 x) (ha : FinAdj adj) (hW : Fin2 W)
    (hb : Fin1c b) : Fin3 (conv x adj W b) := by
  choose xr hxr using hx
  choose Wr hWr using hW
  choose ar har using ha
  choose br hbr using hb
  intro bb n d
  refine ⟨max ((∑ m, ar bb n m * ∑ c, xr bb m c * Wr c d) + br d) 0, ?_⟩
  simp only [conv, support, hxr, hWr, har, hbr, ← EReal.coe_mul, coe_sum, ← EReal.coe_add, coe_max_zero]

-- With m the mean of the 4096 numbers f, the mean of squares minus m² is the mean squared deviation.
private theorem var_eq (f : Fin 16 → Fin 256 → ℝ) (m : ℝ) (hm : m = (∑ b, ∑ d, f b d) * (1 / 4096)) :
    (∑ b, ∑ d, f b d * f b d) * (1 / 4096) - m * m
      = (∑ b, ∑ d, (f b d - m) * (f b d - m)) * (1 / 4096) := by
  have h : ∀ b d, (f b d - m) * (f b d - m) = f b d * f b d - 2 * m * f b d + m * m := fun _ _ => by ring
  simp only [h, Finset.sum_add_distrib, Finset.sum_sub_distrib, ← Finset.mul_sum, Finset.sum_const, Finset.card_univ,
    Fintype.card_fin, nsmul_eq_mul]
  rw [hm]; push_cast; ring

-- μ and v: the real mean and mean squared deviation of one node's 4096 entries.
private def mu (yr : Fin 16 → Fin 1024 → Fin 256 → ℝ) (n : Fin 1024) : ℝ :=
  (∑ b, ∑ d, yr b n d) * (1 / 4096)

private def vr (yr : Fin 16 → Fin 1024 → Fin 256 → ℝ) (n : Fin 1024) : ℝ :=
  (∑ b, ∑ d, (yr b n d - mu yr n) * (yr b n d - mu yr n)) * (1 / 4096)

private theorem vr_nonneg (yr : Fin 16 → Fin 1024 → Fin 256 → ℝ) (n : Fin 1024) : 0 ≤ vr yr n :=
  mul_nonneg (Finset.sum_nonneg fun _ _ => Finset.sum_nonneg fun _ _ => mul_self_nonneg _) (by norm_num)

section Normalise

variable {y : Act} {yr : Fin 16 → Fin 1024 → Fin 256 → ℝ} (hy : ∀ b n d, y b n d = (yr b n d : EReal))
include hy

private theorem meanK_coe (n : Fin 1024) : meanK (rowSum y) n = (mu yr n : EReal) := by
  simp only [meanK, rowSum, hy, coe_sum, inv4096_eq, ← EReal.coe_mul, mu]

private theorem meanR_coe (n : Fin 1024) : meanR y n = (mu yr n : EReal) := by
  simp only [meanR, n4096_eq, Ideal.div_coe (by norm_num : (4096 : ℝ) ≠ 0), hy, coe_sum, ← EReal.coe_mul, mu]

private theorem varK_coe (n : Fin 1024) : varK (rowSum y) (rowSq y) n = (vr yr n : EReal) := by
  simp only [varK, meanK_coe hy, rowSq, hy, coe_sum, inv4096_eq, ← EReal.coe_mul, ← EReal.coe_sub]
  exact congrArg _ (var_eq (fun b d => yr b n d) (mu yr n) rfl)

private theorem varR_coe (n : Fin 1024) : varR y n = (vr yr n : EReal) := by
  simp only [varR, meanR_coe hy, n4096_eq, Ideal.div_coe (by norm_num : (4096 : ℝ) ≠ 0), hy, ← EReal.coe_sub,
    ← EReal.coe_mul, coe_sum, vr]

omit hy in
-- v + ε is a positive real, so its reciprocal square root is the real (√(v + ε))⁻¹.
private theorem rsqrt_coe_pos {e : ℝ} (he : 0 < e) (n : Fin 1024) :
    Ideal.rsqrt ((vr yr n + e : ℝ) : EReal) = (((Real.sqrt (vr yr n + e))⁻¹ : ℝ) : EReal) := by
  have hpos : 0 < vr yr n + e := by linarith [vr_nonneg yr n]
  rw [Ideal.rsqrt_coe, if_neg (not_lt.mpr hpos.le), if_neg hpos.ne']

variable {g be : Node} {gr ber : Fin 1024 → ℝ} {e : ℝ} (hg : ∀ n, g n = (gr n : EReal)) (hb : ∀ n, be n = (ber n : EReal))
  (he : 0 < e) (heps : eps = (e : EReal)) (b : Fin 16) (n : Fin 1024) (d : Fin 256)
include hg hb he heps

private theorem bnR_coe :
    bnR y g be b n d = ((((yr b n d - mu yr n) * (Real.sqrt (vr yr n + e))⁻¹) * gr n + ber n : ℝ) : EReal) := by
  simp only [bnR, meanR_coe hy, varR_coe hy, heps, hg, hb, hy, ← EReal.coe_add, rsqrt_coe_pos he, ← EReal.coe_mul,
    ← EReal.coe_sub]

-- The kernel's affine form is the same real by distributivity.
private theorem bnK_coe :
    bnK y g be b n d = ((((yr b n d - mu yr n) * (Real.sqrt (vr yr n + e))⁻¹) * gr n + ber n : ℝ) : EReal) := by
  simp only [bnK, affineK, scaleK, shiftK, varK_coe hy, meanK_coe hy, heps, hg, hb, hy, ← EReal.coe_add,
    rsqrt_coe_pos he, ← EReal.coe_mul, ← EReal.coe_sub]
  exact congrArg _ (by ring)

end Normalise

-- On real entries the two normalisations agree and the result is real.
theorem bn_law {y : Act} {g be : Node} (hy : Fin3 y) (hg : Fin1n g) (hb : Fin1n be) :
    bnK y g be = bnR y g be ∧ Fin3 (bnR y g be) := by
  choose yr hyr using hy
  choose gr hgr using hg
  choose ber hber using hb
  obtain ⟨e, he, heps⟩ := eps_pos
  exact ⟨funext fun b => funext fun n => funext fun d =>
      (bnK_coe hyr hgr hber he heps b n d).trans (bnR_coe hyr hgr hber he heps b n d).symm,
    fun b n d => ⟨_, bnR_coe hyr hgr hber he heps b n d⟩⟩

theorem kernelOut_eq_refOut {x : Act} {adj : Adj} {W1 W2 : Wt} {b1 b2 : Chan} {g1 be1 g2 be2 : Node}
    (hx : Fin3 x) (ha : FinAdj adj) (hW1 : Fin2 W1) (hb1 : Fin1c b1) (hW2 : Fin2 W2) (hb2 : Fin1c b2)
    (hg1 : Fin1n g1) (hbe1 : Fin1n be1) (hg2 : Fin1n g2) (hbe2 : Fin1n be2) :
    kernelOut x adj W1 b1 W2 b2 g1 be1 g2 be2 = refOut x adj W1 b1 W2 b2 g1 be1 g2 be2 := by
  obtain ⟨e1, f1⟩ := bn_law (conv_fin hx ha hW1 hb1) hg1 hbe1
  unfold kernelOut refOut
  rw [e1, (bn_law (conv_fin f1 ha hW2 hb2) hg2 hbe2).1]

end Cert.Spec

end
-- ==== Proof.FinPre.lean ====
import proofs.«127664_g88656714924069_cont_sun_m_1396_9_alg».proof.Defs
import proofs.«127664_g88656714924069_cont_sun_m_1396_9_alg».proof.Proof.Gen.Pre_finite_inputs
import proofs.«127664_g88656714924069_cont_sun_m_1396_9_alg».proof.Proof.Spec
import Idealize.ShloMosaic.Lib.ReduceAll
import Idealize.ShloMosaic.Lib.ValueIdx

noncomputable section

namespace Cert.Proof.FinPre

open Idealize.ShloMosaic Idealize.SL.Sem Idealize.ShloMosaic.ValueIdx Cert.Pre_finite_inputs

local instance : Subsingleton S_.Idx := ⟨fun a b => funext fun d => d.elim0⟩

-- The word 0x7F800000 is +∞, and |v| < +∞ leaves only the reals: |⊥| = |⊤| = ⊤.
private theorem real_of_abs_lt (v : EReal)
    (h : Ideal.cmp .olt (max v (-v)) (Ideal.ofBits .f32 0x7F800000#32) = 1#1) : ∃ r : ℝ, v = (r : EReal) := by
  rw [show Ideal.ofBits .f32 0x7F800000#32 = (⊤ : EReal) by simp [Ideal.ofBits, Ideal.ieee]] at h
  induction v using EReal.rec with
  | bot => simp [Ideal.cmp] at h
  | coe r => exact ⟨r, rfl⟩
  | top => simp [Ideal.cmp] at h

-- A conjunction over every index that is true is true at each index.
private theorem all_real {s : Shape} {axes : List (Fin s.rank)} {hb : S_.BroadcastsInDim s (![] : Fin 0 → Fin s.rank)}
    {hr : s.ReducesTo axes S_} {hu : 0 < S_.numel} {x : FVec Ideal s .f32} {init : IVec S_ 1}
    (e : Host.reduce IntOp.andi (cmpf .olt (Host.absf x) (broadcastInDim s ![] hb (constant S_ .f32 0x7F800000#32)))
      init hr hu ix0 = 1#1) (i : s.Idx) : ∃ r : ℝ, x i = (r : EReal) :=
  real_of_abs_lt (x i) (Host.reduce_andi_all _ init hr hu ix0 e i)

theorem fin_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    Cert.Spec.Fin3 (fun b n d => (m ((c.tc : Thread Cert.KernelIdeal.nD Cert.KernelIdeal.τ).loc Cert.KernelIdeal.main_arg0) : FVec Ideal Cert.Pre_finite_inputs.S16x1024x256 .f32) (ix3 b n d))
      ∧ Cert.Spec.FinAdj (fun b n k => (m ((c.tc : Thread Cert.KernelIdeal.nD Cert.KernelIdeal.τ).loc Cert.KernelIdeal.main_arg1) : FVec Ideal Cert.Pre_finite_inputs.S16x1024x1024 .f32) (ix3 b n k))
      ∧ Cert.Spec.Fin2 (fun k d => (m ((c.tc : Thread Cert.KernelIdeal.nD Cert.KernelIdeal.τ).loc Cert.KernelIdeal.main_arg2) : FVec Ideal Cert.Pre_finite_inputs.S256x256 .f32) (ix2 k d))
      ∧ Cert.Spec.Fin1c (fun d => (m ((c.tc : Thread Cert.KernelIdeal.nD Cert.KernelIdeal.τ).loc Cert.KernelIdeal.main_arg3) : FVec Ideal Cert.Pre_finite_inputs.S256 .f32) (ix1 d))
      ∧ Cert.Spec.Fin2 (fun k d => (m ((c.tc : Thread Cert.KernelIdeal.nD Cert.KernelIdeal.τ).loc Cert.KernelIdeal.main_arg4) : FVec Ideal Cert.Pre_finite_inputs.S256x256 .f32) (ix2 k d))
      ∧ Cert.Spec.Fin1c (fun d => (m ((c.tc : Thread Cert.KernelIdeal.nD Cert.KernelIdeal.τ).loc Cert.KernelIdeal.main_arg5) : FVec Ideal Cert.Pre_finite_inputs.S256 .f32) (ix1 d))
      ∧ Cert.Spec.Fin1n (fun n => (m ((c.tc : Thread Cert.KernelIdeal.nD Cert.KernelIdeal.τ).loc Cert.KernelIdeal.main_arg6) : FVec Ideal Cert.Pre_finite_inputs.S1024 .f32) (ix1 n))
      ∧ Cert.Spec.Fin1n (fun n => (m ((c.tc : Thread Cert.KernelIdeal.nD Cert.KernelIdeal.τ).loc Cert.KernelIdeal.main_arg7) : FVec Ideal Cert.Pre_finite_inputs.S1024 .f32) (ix1 n))
      ∧ Cert.Spec.Fin1n (fun n => (m ((c.tc : Thread Cert.KernelIdeal.nD Cert.KernelIdeal.τ).loc Cert.KernelIdeal.main_arg8) : FVec Ideal Cert.Pre_finite_inputs.S1024 .f32) (ix1 n))
      ∧ Cert.Spec.Fin1n (fun n => (m ((c.tc : Thread Cert.KernelIdeal.nD Cert.KernelIdeal.τ).loc Cert.KernelIdeal.main_arg9) : FVec Ideal Cert.Pre_finite_inputs.S1024 .f32) (ix1 n)) := by
  have h0 := congrFun (h c) ix0
  dsimp only [fn, fn_part1, fn_part2, Idealize.ShloMosaic.andi] at h0
  simp only [IntOp.andi_eq_one] at h0
  obtain ⟨⟨⟨⟨⟨⟨⟨⟨⟨e0, e1⟩, e2⟩, e3⟩, e4⟩, e5⟩, e6⟩, e7⟩, e8⟩, e9⟩ := h0
  exact ⟨fun b n d => all_real e0 (ix3 b n d), fun b n k => all_real e1 (ix3 b n k), fun k d => all_real e2 (ix2 k d),
    fun d => all_real e3 (ix1 d), fun k d => all_real e4 (ix2 k d), fun d => all_real e5 (ix1 d),
    fun n => all_real e6 (ix1 n), fun n => all_real e7 (ix1 n), fun n => all_real e8 (ix1 n), fun n => all_real e9 (ix1 n)⟩

end Cert.Proof.FinPre

end
-- ==== Proof.lean ====
import proofs.«127664_g88656714924069_cont_sun_m_1396_9_alg».proof.Defs
import proofs.«127664_g88656714924069_cont_sun_m_1396_9_alg».proof.Proof.Gen.Kernel
import proofs.«127664_g88656714924069_cont_sun_m_1396_9_alg».proof.Proof.Gen.KernelIdeal
import proofs.«127664_g88656714924069_cont_sun_m_1396_9_alg».proof.Proof.Gen.ReferenceIdeal
import proofs.«127664_g88656714924069_cont_sun_m_1396_9_alg».proof.Proof.Gen.Pre_finite_inputs
import proofs.«127664_g88656714924069_cont_sun_m_1396_9_alg».proof.Proof.RunArgs
import proofs.«127664_g88656714924069_cont_sun_m_1396_9_alg».proof.Proof.Bound
import proofs.«127664_g88656714924069_cont_sun_m_1396_9_alg».proof.Proof.RefRun
import proofs.«127664_g88656714924069_cont_sun_m_1396_9_alg».proof.Proof.RefRead
import proofs.«127664_g88656714924069_cont_sun_m_1396_9_alg».proof.Proof.SpecLaw
import proofs.«127664_g88656714924069_cont_sun_m_1396_9_alg».proof.Proof.FinPre
import Idealize.ShloMosaic.Lib.ValueIdx

noncomputable section

namespace Cert.Proof

open Idealize.ShloMosaic Idealize.ShloMosaic.TcCoe Idealize.SL.Sem Idealize.ShloMosaic.ValueIdx

section
variable {F : FTy → Type} [FloatOps F]

set_option maxHeartbeats 400000 in
/-- No operation of the kernel program was rewritten for the exact reals, so label by label its kernel bodies are the word-level program's. -/
theorem defs₀_eq : Cert.Kernel.defs₀ (F := F) = Cert.KernelIdeal.defs₀ (F := F) :=
  congrArg Defs.onTc (funext fun ℓ => funext fun a => match ℓ, a with
    | 0, (_, _) => rfl
    | 1, (_, _) => rfl
    | 2, (_, _) => rfl)

theorem defs_eq : Cert.Kernel.defs (F := F) = Cert.KernelIdeal.defs (F := F) := congrArg (Pipeline.defs _) defs₀_eq

/-- At any float instance the kernel program runs to the end, its result buffer at the last fold's contents and every argument buffer as launched. -/
theorem kept (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => ∀ c : Dev Cert.KernelIdeal.nD,
      r.2.mem ((c.tc : Thread Cert.KernelIdeal.nD Cert.KernelIdeal.τ).loc Cert.KernelIdeal.main_v0) = Cert.KernelIdeal.Hand.W6 m ρ c (Proc.devRef .tc Cert.KernelIdeal.main_v0)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)) :=
  (θ_run (Cert.KernelIdeal.defs (F := F)) _ _).mono (fun r h c =>
    have k : ∀ b : Ref Cert.KernelIdeal.sig .tc, ¬(Proc.devRef .tc b : DevRef Cert.KernelIdeal.τ Cert.KernelIdeal.sig).isScoped → Cert.KernelIdeal.Hand.Kept b →
        r.2.mem ((c.tc : Thread Cert.KernelIdeal.nD Cert.KernelIdeal.τ).loc b) = m ((c.tc : Thread Cert.KernelIdeal.nD Cert.KernelIdeal.τ).loc b) :=
      fun b hu hk => (h c _ (Cert.KernelIdeal.Hand.mem_uc b hu)).trans (Cert.KernelIdeal.Hand.W6_kept m ρ c b hk)
    ⟨h c _ (Cert.KernelIdeal.Hand.mem_uc Cert.KernelIdeal.main_v0 (by decide)),
     k Cert.KernelIdeal.main_arg0 (by decide) (by decide),
     k Cert.KernelIdeal.main_arg1 (by decide) (by decide),
     k Cert.KernelIdeal.main_arg2 (by decide) (by decide),
     k Cert.KernelIdeal.main_arg3 (by decide) (by decide),
     k Cert.KernelIdeal.main_arg4 (by decide) (by decide),
     k Cert.KernelIdeal.main_arg5 (by decide) (by decide),
     k Cert.KernelIdeal.main_arg6 (by decide) (by decide),
     k Cert.KernelIdeal.main_arg7 (by decide) (by decide),
     k Cert.KernelIdeal.main_arg8 (by decide) (by decide),
     k Cert.KernelIdeal.main_arg9 (by decide) (by decide)⟩)
    (Cert.KernelIdeal.Hand.run_all m ρ)
end

theorem frame_k : Cert.frame_Kernel (hKernel := Cert.Kernel.Gen.facts) (hPre_finite_inputs := Cert.Pre_finite_inputs.Gen.facts) :=
  fun m ρ _ => defs_eq (F := Bits) ▸ (θ_run (Cert.KernelIdeal.defs (F := Bits)) _ _).mono (fun _ h c => (h c).2) (kept m ρ)

theorem frame_ki : Cert.frame_KernelIdeal (hKernelIdeal := Cert.KernelIdeal.Gen.facts) (hPre_finite_inputs := Cert.Pre_finite_inputs.Gen.facts) :=
  fun m ρ _ => (θ_run (Cert.KernelIdeal.defs (F := Ideal)) _ _).mono (fun _ h c => (h c).2) (kept m ρ)

theorem frame_ri : Cert.frame_ReferenceIdeal (hReferenceIdeal := Cert.ReferenceIdeal.Gen.facts) (hPre_finite_inputs := Cert.Pre_finite_inputs.Gen.facts) :=
  fun m ρ _ => (θ_run (Cert.ReferenceIdeal.defs (F := Ideal)) _ _).mono (fun _ h c => (h c).2) (Cert.ReferenceIdeal.Hand.run (F := Ideal) m ρ)

/-- Entry by entry the kernel's result is the two layers in the affine form of the normalisation, the reference's the same in the centred form; on finite inputs the two forms agree. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨_, kept m ρ, ?_⟩
  refine (θ_run (Cert.ReferenceIdeal.defs (F := Ideal)) _ _).mono (fun r h c => ⟨(h c).1.trans ?_, (h c).2⟩)
    (Cert.ReferenceIdeal.Hand.run (F := Ideal) m' ρ')
  obtain ⟨e0, e1, e2, e3, e4, e5, e6, e7, e8, e9⟩ := hagree c
  rw [e0, e1, e2, e3, e4, e5, e6, e7, e8, e9]
  obtain ⟨hx, ha, hW1, hb1, hW2, hb2, hg1, hbe1, hg2, hbe2⟩ := Cert.Proof.FinPre.fin_of_pre m hpre c
  funext j
  obtain ⟨b, n, d, rfl⟩ : ∃ (b : Fin 16) (n : Fin 1024) (d : Fin 256), j = ix3 b n d := ⟨j 0, j 1, j 2, eq_ix3 j⟩
  refine (Cert.ReferenceIdeal.Hand.refVal_apply _ _ _ _ _ _ _ _ _ _ b n d).trans ?_
  refine Eq.trans ?_ (Cert.KernelIdeal.Hand.kernel_value m ρ c b n d).symm
  exact (congrFun (congrFun (congrFun (Cert.Spec.kernelOut_eq_refOut hx ha hW1 hb1 hW2 hb2 hg1 hbe1 hg2 hbe2) b) n) d).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
